-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x128x128 : Shape := ⟨3, ![2, 128, 128]⟩
abbrev S2x128 : Shape := ⟨2, ![2, 128]⟩
abbrev S2x640000 : Shape := ⟨2, ![2, 640000]⟩
abbrev S_ : Shape := ⟨0, ![]⟩
abbrev S1x640000 : Shape := ⟨2, ![1, 640000]⟩
abbrev S640000 : Shape := ⟨1, ![640000]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part1 {F : FTy → Type} [FloatOps F] (main_arg3 : IVec S2x640000 32) (main_v13 : IVec S_ 1) (main_v15 : IVec S640000 32) (main_v16 : IVec S640000 32) : IVec S_ 1 :=
  let main_v17 : IVec S640000 1 := cmpi .sge main_v15 main_v16
  let main_v18 : IVec S1x640000 32 := (extractStridedSlice S1x640000 ![0, 0] · slices_S2x640000_S1x640000_0_0) main_arg3
  let main_v19 : IVec S640000 32 := shapeCast S640000 main_v18 shapeCasts_S1x640000_S640000
  let main_c_5 : IVec S_ 32 := constantI S_ 32 40000#32
  let main_v20 : IVec S640000 32 := broadcastInDim S640000 ![] bcast_S_S640000 main_c_5
  let main_v21 : IVec S640000 1 := cmpi .slt main_v19 main_v20
  let main_v22 : IVec S640000 1 := andi main_v17 main_v21
  let main_c_6 : IVec S_ 1 := constantI S_ 1 1#1
  let main_v23 : IVec S_ 1 := (fun x v => Host.reduce IntOp.andi x v reducesTo_S640000_S_d0 h_S_) main_v22 main_c_6
  let main_v24 : IVec S_ 1 := andi main_v13 main_v23
  main_v24

def fn {F : FTy → Type} [FloatOps F] (main_arg0 : FVec F S40000x128 .f32) (main_arg1 : FVec F S2x128x128 .f32) (main_arg2 : FVec F S2x128 .f32) (main_arg3 : IVec S2x640000 32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S2x128x128 .f32 := Host.absf main_arg1
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S2x128 .f32 := Host.absf main_arg2
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : IVec S1x640000 32 := (extractStridedSlice S1x640000 ![0, 0] · slices_S2x640000_S1x640000_0_0) main_arg3
  let main_v15 : IVec S640000 32 := shapeCast S640000 main_v14 shapeCasts_S1x640000_S640000
  let main_c_4 : IVec S_ 32 := constantI S_ 32 0#32
  let main_v16 : IVec S640000 32 := broadcastInDim S640000 ![] bcast_S_S640000 main_c_4
  fn_part1 (F := F) main_arg3 main_v13 main_v15 main_v16
-- ==== Kernel.lean ====
abbrev S40000x128 : Shape := ⟨2, ![40000, 128]⟩
abbrev S2x128x128 : Shape := ⟨3, ![2, 128, 128]⟩
abbrev S2x128 : Shape := ⟨2, ![2, 128]⟩
abbrev S2x640000 : Shape := ⟨2, ![2, 640000]⟩
abbrev S1x640000 : Shape := ⟨2, ![1, 640000]⟩
abbrev S640000 : Shape := ⟨1, ![640000]⟩
abbrev S_ : Shape := ⟨0, ![]⟩
abbrev S40000 : Shape := ⟨1, ![40000]⟩
abbrev S640000x1 : Shape := ⟨2, ![640000, 1]⟩
abbrev S40960x128 : Shape := ⟨2, ![40960, 128]⟩
abbrev S1x128x128 : Shape := ⟨3, ![1, 128, 128]⟩
abbrev S128x128 : Shape := ⟨2, ![128, 128]⟩
abbrev S2048x128 : Shape := ⟨2, ![2048, 128]⟩
abbrev S640000x128 : Shape := ⟨2, ![640000, 128]⟩
abbrev S1x256 : Shape := ⟨2, ![1, 256]⟩
abbrev S256x128 : Shape := ⟨2, ![256, 128]⟩
abbrev S40960x1 : Shape := ⟨2, ![40960, 1]⟩
abbrev S40960x256 : Shape := ⟨2, ![40960, 256]⟩
abbrev S1x128 : Shape := ⟨2, ![1, 128]⟩
abbrev S128 : Shape := ⟨1, ![128]⟩
abbrev S1x5120 : Shape := ⟨2, ![1, 5120]⟩
abbrev S5120x128 : Shape := ⟨2, ![5120, 128]⟩
abbrev S2048x1 : Shape := ⟨2, ![2048, 1]⟩
abbrev S2048x5120 : Shape := ⟨2, ![2048, 5120]⟩

abbrev nBuf : Space → Nat
  | .hbm => 65
  | .vmem => 40
  | .smem => 0
  | _ => 0

abbrev bufTy : (tb : Table) → Fin (tcTables nBuf tb) → BufTy
  | .hbm, ⟨0, _⟩ => ⟨S40000x128, .f32⟩
  | .hbm, ⟨1, _⟩ => ⟨S2x128x128, .f32⟩
  | .hbm, ⟨2, _⟩ => ⟨S2x128, .f32⟩
  | .hbm, ⟨3, _⟩ => ⟨S2x640000, .i32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S40000, .f32⟩
  | .hbm, ⟨12, _⟩ => ⟨S640000x1, .i32⟩
  | .hbm, ⟨13, _⟩ => ⟨S40000, .f32⟩
  | .hbm, ⟨14, _⟩ => ⟨S_, .f32⟩
  | .hbm, ⟨15, _⟩ => ⟨S40000, .f32⟩
  | .hbm, ⟨16, _⟩ => ⟨S640000x1, .i32⟩
  | .hbm, ⟨17, _⟩ => ⟨S40000, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000, .f32⟩
  | .hbm, ⟨36, _⟩ => ⟨S640000, .f32⟩
  | .hbm, ⟨37, _⟩ => ⟨S_, .f32⟩
  | .hbm, ⟨38, _⟩ => ⟨S_, .f32⟩
  | .hbm, ⟨39, _⟩ => ⟨S640000, .f32⟩
  | .hbm, ⟨40, _⟩ => ⟨S640000, .f32⟩
  | .hbm, ⟨41, _⟩ => ⟨S640000, .f32⟩
  | .hbm, ⟨42, _⟩ => ⟨S1x640000, .i32⟩
  | .hbm, ⟨43, _⟩ => ⟨S1x640000, .i32⟩
  | .hbm, ⟨44, _⟩ => ⟨S1x640000, .f32⟩
  | .hbm, ⟨45, _⟩ => ⟨S_, .i32⟩
  | .hbm, ⟨46, _⟩ => ⟨S_, .f32⟩
  | .hbm, ⟨47, _⟩ => ⟨S40960x128, .f32⟩
  | .hbm, ⟨48, _⟩ => ⟨S1x128x128, .f32⟩
  | .hbm, ⟨49, _⟩ => ⟨S128x128, .f32⟩
  | .hbm, ⟨50, _⟩ => ⟨S40960x128, .bf16⟩
  | .hbm, ⟨51, _⟩ => ⟨S640000x128, .bf16⟩
  | .hbm, ⟨52, _⟩ => ⟨S1x128, .f32⟩
  | .hbm, ⟨53, _⟩ => ⟨S128, .f32⟩
  | .hbm, ⟨54, _⟩ => ⟨S1x128, .f32⟩
  | .hbm, ⟨55, _⟩ => ⟨S40960x128, .f32⟩
  | .hbm, ⟨56, _⟩ => ⟨S1x128x128, .f32⟩
  | .hbm, ⟨57, _⟩ => ⟨S128x128, .f32⟩
  | .hbm, ⟨58, _⟩ => ⟨S40960x128, .bf16⟩
  | .hbm, ⟨59, _⟩ => ⟨S640000x128, .bf16⟩
  | .hbm, ⟨60, _⟩ => ⟨S1x128, .f32⟩
  | .hbm, ⟨61, _⟩ => ⟨S128, .f32⟩
  | .hbm, ⟨62, _⟩ => ⟨S1x128, .f32⟩
  | .hbm, ⟨63, _⟩ => ⟨S40960x128, .f32⟩
  | .hbm, ⟨64, _⟩ => ⟨S40000x128, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S2048x128, .bf16⟩
  | .local _ .vmem, ⟨4, _⟩ => ⟨S2048x128, .bf16⟩
  | .local _ .vmem, ⟨5, _⟩ => ⟨S1x256, .i32⟩
  | .local _ .vmem, ⟨6, _⟩ => ⟨S1x256, .i32⟩
  | .local _ .vmem, ⟨7, _⟩ => ⟨S1x256, .f32⟩
  | .local _ .vmem, ⟨8, _⟩ => ⟨S1x256, .f32⟩
  | .local _ .vmem, ⟨9, _⟩ => ⟨S40960x128, .bf16⟩
  | .local _ .vmem, ⟨10, _⟩ => ⟨S256x128, .bf16⟩
  | .local _ .vmem, ⟨11, _⟩ => ⟨S256x128, .bf16⟩
  | .local _ .vmem, ⟨12, _⟩ => ⟨S1x5120, .i32⟩
  | .local _ .vmem, ⟨13, _⟩ => ⟨S1x5120, .i32⟩
  | .local _ .vmem, ⟨14, _⟩ => ⟨S5120x128, .bf16⟩
  | .local _ .vmem, ⟨15, _⟩ => ⟨S5120x128, .bf16⟩
  | .local _ .vmem, ⟨16, _⟩ => ⟨S1x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S128x128, .f32⟩
  | .local _ .vmem, ⟨23, _⟩ => ⟨S2048x128, .bf16⟩
  | .local _ .vmem, ⟨24, _⟩ => ⟨S2048x128, .bf16⟩
  | .local _ .vmem, ⟨25, _⟩ => ⟨S1x256, .i32⟩
  | .local _ .vmem, ⟨26, _⟩ => ⟨S1x256, .i32⟩
  | .local _ .vmem, ⟨27, _⟩ => ⟨S1x256, .f32⟩
  | .local _ .vmem, ⟨28, _⟩ => ⟨S1x256, .f32⟩
  | .local _ .vmem, ⟨29, _⟩ => ⟨S40960x128, .bf16⟩
  | .local _ .vmem, ⟨30, _⟩ => ⟨S256x128, .bf16⟩
  | .local _ .vmem, ⟨31, _⟩ => ⟨S256x128, .bf16⟩
  | .local _ .vmem, ⟨32, _⟩ => ⟨S1x5120, .i32⟩
  | .local _ .vmem, ⟨33, _⟩ => ⟨S1x5120, .i32⟩
  | .local _ .vmem, ⟨34, _⟩ => ⟨S5120x128, .bf16⟩
  | .local _ .vmem, ⟨35, _⟩ => ⟨S5120x128, .bf16⟩
  | .local _ .vmem, ⟨36, _⟩ => ⟨S1x128, .f32⟩
  | .local _ .vmem, ⟨37, _⟩ => ⟨S2048x128, .f32⟩
  | .local _ .vmem, ⟨38, _⟩ => ⟨S2048x128, .f32⟩
  | .local _ .vmem, ⟨39, _⟩ => ⟨S2048x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_call1_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg3_1 : Ref sig .tc := ⟨.vmem, 38, rfl⟩
abbrev cc5_scratch0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem3_0 : DmaSem sig := 29
abbrev cc4_sem3_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem3_0 : DmaSem sig := 36
abbrev cc5_sem3_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x256 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S40960x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![20, 125], ![false, false]⟩

def k2_cond2 (i : grid2.Coords) : BitVec 1 :=
  let arg1 : BitVec 32 := BitVec.ofNat 32 (i 1).val
  let c124_i32 : BitVec 32 := 124#32
  let v23 : BitVec 1 := Scalar.cmpi .eq arg1 c124_i32
  let v24 : BitVec 32 := Scalar.extui v23
  let c0_i32_8 : BitVec 32 := 0#32
  let v25 : BitVec 1 := Scalar.cmpi .ne v24 c0_i32_8
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x5120 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S5120x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2048x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![2500], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1x256 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S40960x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S256x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![20, 125], ![false, false]⟩

def k5_cond2 (i : grid5.Coords) : BitVec 1 :=
  let arg1 : BitVec 32 := BitVec.ofNat 32 (i 1).val
  let c124_i32 : BitVec 32 := 124#32
  let v23 : BitVec 1 := Scalar.cmpi .eq arg1 c124_i32
  let v24 : BitVec 32 := Scalar.extui v23
  let c0_i32_8 : BitVec 32 := 0#32
  let v25 : BitVec 1 := Scalar.cmpi .ne v24 c0_i32_8
  v25

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1x5120 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S5120x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S2048x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  shapeCasts_S640000_S1x640000 : S640000.ShapeCasts S1x640000
  pads_S40000x128_S40960x128_09600_000 : S40000x128.Pads (![0, 0] : Fin 2 → Nat) ![960, 0] ![0, 0] S40960x128
  h_S_ : 0 < S_.numel
  slices_S2x128x128_S1x128x128_0_0_0 : S2x128x128.Slices ![0, 0, 0] S1x128x128
  shapeCasts_S1x128x128_S128x128 : S1x128x128.ShapeCasts S128x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S2048x128_S2048x128_0_0 : (Rect.unit (s := S2048x128) ![0, 0] S2048x128.size inb_S2048x128_S2048x128_0_0).PackedRows (EltTy.packing .bf16)
  iota_S40960x1_d0_w32 : S40960x1.Iotas .tc 32 [0]
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S40960x1_S40960x256 : S40960x1.Broadcasts S40960x256
  broadcasts_S1x256_S40960x256 : S1x256.Broadcasts S40960x256
  inb_S40960x128_S40960x128_0_0 : ∀ a, (![0, 0] : Fin 2 → Nat) a + S40960x128.size a ≤ S40960x128.size a
  h_S40960x128 : 0 < S40960x128.numel
  shapeCasts_S40960x128_S40960x128 : S40960x128.ShapeCasts S40960x128
  inb_S256x128_S256x128_0_0 : ∀ a, (![0, 0] : Fin 2 → Nat) a + S256x128.size a ≤ S256x128.size a
  h_S256x128 : 0 < S256x128.numel
  packedbf16_S256x128_S256x128_0_0 : (Rect.unit (s := S256x128) ![0, 0] S256x128.size inb_S256x128_S256x128_0_0).PackedRows (EltTy.packing .bf16)
  slices_S2x128_S1x128_0_0 : S2x128.Slices ![0, 0] S1x128
  shapeCasts_S1x128_S128 : S1x128.ShapeCasts S128
  shapeCasts_S128_S1x128 : S128.ShapeCasts S1x128
  iota_S2048x1_d0_w32 : S2048x1.Iotas .tc 32 [0]
  inb_S1x5120_S1x5120_0_0 : ∀ a, (![0, 0] : Fin 2 → Nat) a + S1x5120.size a ≤ S1x5120.size a
  h_S1x5120 : 0 < S1x5120.numel
  shapeCasts_S1x5120_S1x5120 : S1x5120.ShapeCasts S1x5120
  broadcasts_S2048x1_S2048x5120 : S2048x1.Broadcasts S2048x5120
  broadcasts_S1x5120_S2048x5120 : S1x5120.Broadcasts S2048x5120
  natLt_1_32 : 1 < 32
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S2x128x128_S1x128x128_1_0_0 : S2x128x128.Slices ![1, 0, 0] S1x128x128
  slices_S2x128_S1x128_1_0 : S2x128.Slices ![1, 0] S1x128
  slices_S40960x128_S40000x128_0_0 : S40960x128.Slices ![0, 0] S40000x128
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  dot_S2048x128_S128x128_S2048x128_1_0_0_1_n_n_wf : DotDims.WF S2048x128 S128x128 S2048x128 [1] [0] [0] [1] [] []
  dot_S40960x256_S40960x128_S256x128_0_0_1_1_n_n_wf : DotDims.WF S40960x256 S40960x128 S256x128 [0] [0] [1] [1] [] []
  dot_S2048x5120_S5120x128_S2048x128_1_0_0_1_n_n_wf : DotDims.WF S2048x5120 S5120x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S40960x128.size a
  hwx0_0 : ∀ i : grid0.Coords, EltTy.bits .f32 = 32 ∨ (Rect.block (s := S40960x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S40960x128.size a
  hwx0_2 : ∀ i : grid0.Coords, EltTy.bits .bf16 = 32 ∨ (Rect.block (s := S40960x128) S2048x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256.size a ≤ S1x640000.size a
  hwx1_0 : ∀ i : grid1.Coords, EltTy.bits .i32 = 32 ∨ (Rect.block (s := S1x640000) S1x256.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x640000.size a
  hwx1_1 : ∀ i : grid1.Coords, EltTy.bits .f32 = 32 ∨ (Rect.block (s := S1x640000) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S40960x128.size a ≤ S40960x128.size a
  hwx1_2 : ∀ i : grid1.Coords, EltTy.bits .bf16 = 32 ∨ (Rect.block (s := S40960x128) S40960x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S640000x128.size a
  hwx1_3 : ∀ i : grid1.Coords, EltTy.bits .bf16 = 32 ∨ (Rect.block (s := S640000x128) S256x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x5120.size a ≤ S1x640000.size a
  hwx2_0 : ∀ i : grid2.Coords, EltTy.bits .i32 = 32 ∨ (Rect.block (s := S1x640000) S1x5120.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5120x128.size a ≤ S640000x128.size a
  hwx2_1 : ∀ i : grid2.Coords, EltTy.bits .bf16 = 32 ∨ (Rect.block (s := S640000x128) S5120x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S40960x128.size a
  hwx2_3 : ∀ i : grid2.Coords, EltTy.bits .f32 = 32 ∨ (Rect.block (s := S40960x128) S2048x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S40960x128.size a
  hwx3_0 : ∀ i : grid3.Coords, EltTy.bits .f32 = 32 ∨ (Rect.block (s := S40960x128) S2048x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x128.size a ≤ S40960x128.size a
  hwx3_2 : ∀ i : grid3.Coords, EltTy.bits .bf16 = 32 ∨ (Rect.block (s := S40960x128) S2048x128.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x256.size a ≤ S1x640000.size a
  hwx4_0 : ∀ i : grid4.Coords, EltTy.bits .i32 = 32 ∨ (Rect.block (s := S1x640000) S1x256.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x640000.size a
  hwx4_1 : ∀ i : grid4.Coords, EltTy.bits .f32 = 32 ∨ (Rect.block (s := S1x640000) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S40960x128.size a ≤ S40960x128.size a
  hwx4_2 : ∀ i : grid4.Coords, EltTy.bits .bf16 = 32 ∨ (Rect.block (s := S40960x128) S40960x128.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S640000x128.size a
  hwx4_3 : ∀ i : grid4.Coords, EltTy.bits .bf16 = 32 ∨ (Rect.block (s := S640000x128) S256x128.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x5120.size a ≤ S1x640000.size a
  hwx5_0 : ∀ i : grid5.Coords, EltTy.bits .i32 = 32 ∨ (Rect.block (s := S1x640000) S1x5120.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5120x128.size a ≤ S640000x128.size a
  hwx5_1 : ∀ i : grid5.Coords, EltTy.bits .bf16 = 32 ∨ (Rect.block (s := S640000x128) S5120x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x128.size a ≤ S40960x128.size a
  hwx5_3 : ∀ i : grid5.Coords, EltTy.bits .f32 = 32 ∨ (Rect.block (s := S40960x128) S2048x128.size (cc5_transform_3 i) (hinb5_3 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S40960x256_S40960x128_S256x128_0_0_1_1_n_n : DotDims S40960x256 S40960x128 S256x128 where
  lhsContracting := [0]
  rhsContracting := [0]
  lhsNonContracting := [1]
  rhsNonContracting := [1]
  lhsBatch := []
  rhsBatch := []
  wf := dot_S40960x256_S40960x128_S256x128_0_0_1_1_n_n_wf
def dot_S2048x5120_S5120x128_S2048x128_1_0_0_1_n_n : DotDims S2048x5120 S5120x128 S2048x128 where
  lhsContracting := [1]
  rhsContracting := [0]
  lhsNonContracting := [0]
  rhsNonContracting := [1]
  lhsBatch := []
  rhsBatch := []
  wf := dot_S2048x5120_S5120x128_S2048x128_1_0_0_1_n_n_wf

abbrev win0_0 : Pipeline.Window sig grid0 :=
  Pipeline.Window.ofSpec (Memref.whole main_v31) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S1x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S40960x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S1x5120.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5120x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S2048x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v39) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S2048x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v28) S1x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S1x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v42) S40960x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v43) S256x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v29) S1x5120.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v43) S5120x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v46) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v47) S2048x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S40000x128 : Shape := ⟨2, ![40000, 128]⟩
abbrev S2x128x128 : Shape := ⟨3, ![2, 128, 128]⟩
abbrev S2x128 : Shape := ⟨2, ![2, 128]⟩
abbrev S2x640000 : Shape := ⟨2, ![2, 640000]⟩
abbrev S1x640000 : Shape := ⟨2, ![1, 640000]⟩
abbrev S640000 : Shape := ⟨1, ![640000]⟩
abbrev S_ : Shape := ⟨0, ![]⟩
abbrev S40000 : Shape := ⟨1, ![40000]⟩
abbrev S640000x1 : Shape := ⟨2, ![640000, 1]⟩
abbrev S1x128x128 : Shape := ⟨3, ![1, 128, 128]⟩
abbrev S128x128 : Shape := ⟨2, ![128, 128]⟩
abbrev S640000x128 : Shape := ⟨2, ![640000, 128]⟩
abbrev S1x128 : Shape := ⟨2, ![1, 128]⟩
abbrev S128 : Shape := ⟨1, ![128]⟩

abbrev nBuf : Space → Nat
  | .hbm => 90
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x128x128, .f32⟩
  | .hbm, ⟨2, _⟩ => ⟨S2x128, .f32⟩
  | .hbm, ⟨3, _⟩ => ⟨S2x640000, .i32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S40000, .f32⟩
  | .hbm, ⟨12, _⟩ => ⟨S640000x1, .i32⟩
  | .hbm, ⟨13, _⟩ => ⟨S40000, .f32⟩
  | .hbm, ⟨14, _⟩ => ⟨S_, .f32⟩
  | .hbm, ⟨15, _⟩ => ⟨S40000, .f32⟩
  | .hbm, ⟨16, _⟩ => ⟨S640000x1, .i32⟩
  | .hbm, ⟨17, _⟩ => ⟨S40000, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000, .f32⟩
  | .hbm, ⟨36, _⟩ => ⟨S640000, .f32⟩
  | .hbm, ⟨37, _⟩ => ⟨S_, .f32⟩
  | .hbm, ⟨38, _⟩ => ⟨S_, .f32⟩
  | .hbm, ⟨39, _⟩ => ⟨S640000, .f32⟩
  | .hbm, ⟨40, _⟩ => ⟨S640000, .f32⟩
  | .hbm, ⟨41, _⟩ => ⟨S640000, .f32⟩
  | .hbm, ⟨42, _⟩ => ⟨S1x128x128, .f32⟩
  | .hbm, ⟨43, _⟩ => ⟨S128x128, .f32⟩
  | .hbm, ⟨44, _⟩ => ⟨S40000x128, .f32⟩
  | .hbm, ⟨45, _⟩ => ⟨S_, .i32⟩
  | .hbm, ⟨46, _⟩ => ⟨S640000, .i32⟩
  | .hbm, ⟨47, _⟩ => ⟨S640000, .i1⟩
  | .hbm, ⟨48, _⟩ => ⟨S_, .i32⟩
  | .hbm, ⟨49, _⟩ => ⟨S640000, .i32⟩
  | .hbm, ⟨50, _⟩ => ⟨S640000, .i32⟩
  | .hbm, ⟨51, _⟩ => ⟨S640000, .i32⟩
  | .hbm, ⟨52, _⟩ => ⟨S640000x1, .i32⟩
  | .hbm, ⟨53, _⟩ => ⟨S640000x128, .f32⟩
  | .hbm, ⟨54, _⟩ => ⟨S640000x1, .f32⟩
  | .hbm, ⟨55, _⟩ => ⟨S640000x128, .f32⟩
  | .hbm, ⟨56, _⟩ => ⟨S640000x128, .f32⟩
  | .hbm, ⟨57, _⟩ => ⟨S_, .f32⟩
  | .hbm, ⟨58, _⟩ => ⟨S40000x128, .f32⟩
  | .hbm, ⟨59, _⟩ => ⟨S640000x1, .i32⟩
  | .hbm, ⟨60, _⟩ => ⟨S40000x128, .f32⟩
  | .hbm, ⟨61, _⟩ => ⟨S1x128, .f32⟩
  | .hbm, ⟨62, _⟩ => ⟨S128, .f32⟩
  | .hbm, ⟨63, _⟩ => ⟨S1x128, .f32⟩
  | .hbm, ⟨64, _⟩ => ⟨S40000x128, .f32⟩
  | .hbm, ⟨65, _⟩ => ⟨S40000x128, .f32⟩
  | .hbm, ⟨66, _⟩ => ⟨S1x128x128, .f32⟩
  | .hbm, ⟨67, _⟩ => ⟨S128x128, .f32⟩
  | .hbm, ⟨68, _⟩ => ⟨S40000x128, .f32⟩
  | .hbm, ⟨69, _⟩ => ⟨S_, .i32⟩
  | .hbm, ⟨70, _⟩ => ⟨S640000, .i32⟩
  | .hbm, ⟨71, _⟩ => ⟨S640000, .i1⟩
  | .hbm, ⟨72, _⟩ => ⟨S_, .i32⟩
  | .hbm, ⟨73, _⟩ => ⟨S640000, .i32⟩
  | .hbm, ⟨74, _⟩ => ⟨S640000, .i32⟩
  | .hbm, ⟨75, _⟩ => ⟨S640000, .i32⟩
  | .hbm, ⟨76, _⟩ => ⟨S640000x1, .i32⟩
  | .hbm, ⟨77, _⟩ => ⟨S640000x128, .f32⟩
  | .hbm, ⟨78, _⟩ => ⟨S640000x1, .f32⟩
  | .hbm, ⟨79, _⟩ => ⟨S640000x128, .f32⟩
  | .hbm, ⟨80, _⟩ => ⟨S640000x128, .f32⟩
  | .hbm, ⟨81, _⟩ => ⟨S_, .f32⟩
  | .hbm, ⟨82, _⟩ => ⟨S40000x128, .f32⟩
  | .hbm, ⟨83, _⟩ => ⟨S640000x1, .i32⟩
  | .hbm, ⟨84, _⟩ => ⟨S40000x128, .f32⟩
  | .hbm, ⟨85, _⟩ => ⟨S1x128, .f32⟩
  | .hbm, ⟨86, _⟩ => ⟨S128, .f32⟩
  | .hbm, ⟨87, _⟩ => ⟨S1x128, .f32⟩
  | .hbm, ⟨88, _⟩ => ⟨S40000x128, .f32⟩
  | .hbm, ⟨89, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_9 : Ref sig .tc := ⟨.hbm, 69, rfl⟩
abbrev main_v52 : Ref sig .tc := ⟨.hbm, 70, rfl⟩
abbrev main_v53 : Ref sig .tc := ⟨.hbm, 71, rfl⟩
abbrev main_c_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  slices_S2x128x128_S1x128x128_0_0_0 : S2x128x128.Slices ![0, 0, 0] S1x128x128
  shapeCasts_S1x128x128_S128x128 : S1x128x128.ShapeCasts S128x128
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  slices_S2x128x128_S1x128x128_1_0_0 : S2x128x128.Slices ![1, 0, 0] S1x128x128
  slices_S2x128_S1x128_1_0 : S2x128.Slices ![1, 0] S1x128
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  dot_S40000x128_S128x128_S40000x128_1_0_0_1_n_n_wf : DotDims.WF S40000x128 S128x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

class Facts : Prop extends Facts₀ where

variable [Facts]
-- ==== Proof.K.T0.lean ====
import proofs.«425587_j43765716746405_1_alg».proof.Proof.Gen.Kernel.Launch
import proofs.«425587_j43765716746405_1_alg».proof.Proof.Gen.Kernel.Skeleton
import proofs.«425587_j43765716746405_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r0_0 : Rect S2048x128 := Rect.unit (s := S2048x128) ![0, 0] S2048x128.size inb_S2048x128_S2048x128_0_0
abbrev r0_1 : Rect S128x128 := Rect.unit (s := S128x128) ![0, 0] S128x128.size inb_S128x128_S128x128_0_0

/-- What the dense transform's body leaves in its output block: its one store, of the product of the two loaded blocks. -/
def out0_2 (x0 : Vec F S2048x128 .f32) (x1 : Vec F S128x128 .f32) : Vec F S2048x128 .bf16 :=
  View.canon [⟨r0_0, k0_pay1 (View.ld x0 r0_0) (View.ld x1 r0_1)⟩]

theorem cover0_2 (p0 : Vec F S2048x128 .bf16) (y : S2048x128.Idx) :
    ∃ pc ∈ ([⟨r0_0, p0⟩] : List (View.Piece (Elt F) S2048x128 .bf16)), y ∈ pc.1.set :=
  View.cover_of_tiled [⟨r0_0, p0⟩] S2048x128.size (by rfl) y

/-- The body on whole memrefs, the inputs' at `x0`, `x1` and the output's at anything, runs to the continuation with the
    inputs' as they were and the output's at `out0_2 x0 x1`: its one store covers the output block. -/
theorem sound_kernel0 (c : Dev nD) (E : Set ℕ) (i : grid0.Coords) (arg1 : Memref sig .tc .vmem S2048x128 .f32) (harg1 : arg1.IsWhole)
    (arg2 : Memref sig .tc .vmem S128x128 .f32) (harg2 : arg2.IsWhole) (arg3 : Memref sig .tc .vmem S2048x128 .bf16) (harg3 : arg3.IsWhole)
    (x0 : Vec F S2048x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Regions 0 and 3 run one kernel: the rewrite that reads either region's body as this one's. -/
theorem same_kernel0 : cc0__matmul_kernel (F := F) = cc0__matmul_kernel := rfl
theorem same_kernel3 : cc3__matmul_kernel (F := F) = cc0__matmul_kernel := rfl

end Cert.Kernel.Hand

end
-- ==== Proof.K.R0.lean ====
import proofs.«425587_j43765716746405_1_alg».proof.Proof.K.T0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: after the body at point `t` the inputs are their blocks and the output block is the product of the two. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl
theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = out0_2 (iblk0 V c 0 t) (iblk0 V c 1 t) := by
  dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

/-- What the body is given at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The inputs hold their blocks, so the body's triple applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [same_kernel0]
  simp only [before0_0, before0_1]
  rw [show (dat0 V c).Φ t.succ = (dat0 V c).Φ t.castSucc from rfl,
    show (dat0 V c).owesAt () t.succ = (dat0 V c).owesAt () t.castSucc from rfl, after0_0, after0_1, after0_2]
  refine .trans ?_ (sound_kernel0 c Set.univ _ _ _ _ _ _ _ (iblk0 V c 0 t) (iblk0 V c 1 t) _)
  iintro ⟨HΦ, Ho, ⟨%d0, H0⟩, ⟨%d1, H1⟩, ⟨%d2, H2⟩⟩
  iframe H0 H1
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.T1.lean ====
import proofs.«425587_j43765716746405_1_alg».proof.Proof.Gen.Kernel.Launch
import proofs.«425587_j43765716746405_1_alg».proof.Proof.Gen.Kernel.Skeleton
import proofs.«425587_j43765716746405_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r1_0 : Rect S1x256 := Rect.unit (s := S1x256) ![0, 0] S1x256.size inb_S1x256_S1x256_0_0
abbrev r1_1 : Rect S1x256 := Rect.unit (s := S1x256) ![0, 0] S1x256.size inb_S1x256_S1x256_0_0
abbrev r1_2 : Rect S40960x128 := Rect.unit (s := S40960x128) ![0, 0] S40960x128.size inb_S40960x128_S40960x128_0_0
abbrev r1_3 : Rect S256x128 := Rect.unit (s := S256x128) ![0, 0] S256x128.size inb_S256x128_S256x128_0_0

/-- What the gather's body leaves in its output block, from the three input blocks. -/
def out1_3 (x0 : Vec F S1x256 .i32) (x1 : Vec F S1x256 .f32) (x2 : Vec F S40960x128 .bf16) : Vec F S256x128 .bf16 :=
  View.canon [⟨r1_3, k1_pay1 (View.ld x0 r1_0) (View.ld x1 r1_1) (View.ld x2 r1_2)⟩]

theorem cover1_3 (p : Vec F S256x128 .bf16) (y : S256x128.Idx) :
    ∃ pc ∈ ([⟨r1_3, p⟩] : List (View.Piece (Elt F) S256x128 .bf16)), y ∈ pc.1.set :=
  View.cover_of_tiled [⟨r1_3, p⟩] S256x128.size (by rfl) y

/-- The body on whole memrefs, the inputs' at `x0`, `x1`, `x2` and the output's at anything, runs to the continuation with
    the inputs' as they were and the output's at `out1_3 x0 x1 x2`: its one store covers the output block. -/
theorem triple1 (c : Dev nD) (E : Set ℕ) (i : grid1.Coords)
    (a0 : Memref sig .tc .vmem S1x256 .i32) (h0 : a0.IsWhole) (a1 : Memref sig .tc .vmem S1x256 .f32) (h1 : a1.IsWhole)
    (a2 : Memref sig .tc .vmem S40960x128 .bf16) (h2 : a2.IsWhole) (a3 : Memref sig .tc .vmem S256x128 .bf16) (h3 : a3.IsWhole)
    (x0 : Vec F S1x256 .i32) (x1 : Vec F S1x256 .f32) (x2 : Vec F S40960x128 .bf16) (K : PUnit → sProp 𝕄) :
    iprop(owns (c : Thread nD τ) a0 fullShare x0 ∗ owns (c : Thread nD τ) a1 fullShare x1
        ∗ owns (c : Thread nD τ) a2 fullShare x2 ∗ (∃ d, owns (c : Thread nD τ) a3 fullShare d)
        ∗ (iprop(owns (c : Thread nD τ) a0 fullShare x0 ∗ owns (c : Thread nD τ) a1 fullShare x1
            ∗ owns (c : Thread nD τ) a2 fullShare x2 ∗ owns (c : Thread nD τ) a3 fullShare (out1_3 x0 x1 x2)) -∗ K ⟨⟩))
      ⊢ wp frame (wpE (defs₀ (F := F)) Variants.none c none) E (cc1__gather_kernel i a0 h0 a1 h1 a2 h2 a3 h3) K := by
  rw [cc1__gather_kernel_eq_skeleton]
  unfold cc1__gather_kernel_skel owns
  iintro ⟨⟨%f0, %e0, H0⟩, ⟨%f1, %e1, H1⟩, ⟨%f2, %e2, H2⟩, ⟨%d3, %f3, -, H3⟩, Hk⟩
  subst e0 e1 e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- Regions 1 and 4 run one kernel: the rewrite that reads either region's body as this one's. -/
theorem same_kernel1 : cc1__gather_kernel (F := F) = cc1__gather_kernel := rfl
theorem same_kernel4 : cc4__gather_kernel (F := F) = cc1__gather_kernel := rfl

end Cert.Kernel.Hand

end
-- ==== Proof.K.R1.lean ====
import proofs.«425587_j43765716746405_1_alg».proof.Proof.K.T1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: after the body at point `t` the inputs are their blocks and the output block is `out1_3` of the three. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl
theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = iblk1 V c 2 t := rfl
theorem after1_3 (c : Dev nD) (t : Fin cfg1.N) :
    (dat1 V c).after 3 t = out1_3 (iblk1 V c 0 t) (iblk1 V c 1 t) (iblk1 V c 2 t) := rfl

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

/-- The inputs hold their blocks, so the body's triple applies; the rest passes through. -/
theorem step1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t)) := by
  unfold bodyAt1
  rw [same_kernel1]
  simp only [before1_0, before1_1, before1_2]
  rw [after1_0, after1_1, after1_2, after1_3, show (dat1 V c).Φ t.succ = (dat1 V c).Φ t.castSucc from rfl,
    show (dat1 V c).owesAt () t.succ = (dat1 V c).owesAt () t.castSucc from rfl]
  refine .trans ?_ (triple1 c Set.univ _ _ _ _ _ _ _ _ _ (iblk1 V c 0 t) (iblk1 V c 1 t) (iblk1 V c 2 t) _)
  iintro ⟨HΦ, Ho, ⟨%d0, H0⟩, ⟨%d1, H1⟩, ⟨%d2, H2⟩, ⟨%d3, H3⟩⟩
  iframe H0 H1 H2
  isplitl [H3]; · iexists _; iexact H3
  iintro ⟨H0, H1, H2, H3⟩
  iframe

theorem body_obligation1 (c : Dev nD) : BodyObligation (dat1 (F := F) V c) (defs₀ (F := F)) Variants.none () Set.univ := fun t => by
  rw [bigSep_W1, bigSep_W1]
  exact step1 V c t

end Cert.Kernel.Hand

end
-- ==== Proof.K.T2.lean ====
import proofs.«425587_j43765716746405_1_alg».proof.Proof.Gen.Kernel.Launch
import proofs.«425587_j43765716746405_1_alg».proof.Proof.Gen.Kernel.Skeleton
import proofs.«425587_j43765716746405_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first test, `kc = 0`, as it computes it from the coordinates. -/
abbrev cond2_0 (i : grid2.Coords) : Prop :=
  (Scalar.cmpi .ne (Scalar.extui (Scalar.cmpi .eq (BitVec.ofNat 32 (i 1).val) 0#32)) 0#32) = 1#1

theorem hcond2_0 : ∀ t : Fin cfg2.N, cond2_0 (grid2.coords t) ↔ t.val % 125 = 0 :=
  (by decide +kernel : ∀ t : Fin grid2.N, cond2_0 (grid2.coords t) ↔ t.val % 125 = 0)

theorem hcond2_1 : ∀ t : Fin cfg2.N, k2_cond2 (grid2.coords t) = 1#1 ↔ t.val % 125 = 124 :=
  (by decide +kernel : ∀ t : Fin grid2.N, k2_cond2 (grid2.coords t) = 1#1 ↔ t.val % 125 = 124)

/-! Every load and store of this body goes through the rectangle of a whole buffer, which embeds each index as itself. -/

theorem zeros2_2 : (![0, 0] : Fin 2 → ℕ) = fun _ => 0 := by funext a; fin_cases a <;> rfl

theorem emb_whole2 {S : Shape} {off : Fin S.rank → ℕ} (h : off = fun _ => 0) (inb : ∀ a, off a + S.size a ≤ S.size a)
    (x : S.Idx) : (Rect.unit off S.size inb).emb x = x := by
  subst h
  funext a
  apply Fin.ext
  show 0 + 1 * (x a).val = (x a).val
  rw [Nat.one_mul, Nat.zero_add]

theorem ld_whole2 {Val : EltTy → Type} {S : Shape} {e : EltTy} {off : Fin S.rank → ℕ} (h : off = fun _ => 0)
    (inb : ∀ a, off a + S.size a ≤ S.size a) (X : S.Idx → Val e) : View.ld X (Rect.unit off S.size inb) = X :=
  funext fun x => congrArg X (emb_whole2 h inb x)

theorem read_writes_cons_whole2 {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  funext y
  have e := View.read_writes_cons_emb v f (Rect.unit off S.size inb) w L y
  rwa [emb_whole2 h inb y] at e

/-- `kc = 0`: the scratch, whatever it held, is zeroed and then holds the first product. -/
theorem runFirst2 (c : Dev nD) (i : grid2.Coords)
    (arg2 : Memref sig .tc .vmem S1x5120 .i32) (harg2 : arg2.IsWhole)
    (arg3 : Memref sig .tc .vmem S5120x128 .bf16) (harg3 : arg3.IsWhole)
    (arg4 : Memref sig .tc .vmem S1x128 .f32) (harg4 : arg4.IsWhole)
    (arg5 : Memref sig .tc .vmem S2048x128 .f32) (harg5 : arg5.IsWhole)
    (arg6 : Memref sig .tc .vmem S2048x128 .f32) (harg6 : arg6.IsWhole)
    (hc0 : cond2_0 i) (hc1 : ¬ k2_cond2 i = 1#1)
    (x0 : Vec F S1x5120 .i32) (x1 : Vec F S5120x128 .bf16)
    (E : Set ℕ) (K : PUnit → sProp 𝕄) :
    iprop(owns (c : Thread nD τ) arg2 fullShare x0 ∗ owns (c : Thread nD τ) arg3 fullShare x1
        ∗ (∃ d, owns (c : Thread nD τ) arg6 fullShare d)
        ∗ (iprop(owns (c : Thread nD τ) arg2 fullShare x0 ∗ owns (c : Thread nD τ) arg3 fullShare x1
            ∗ owns (c : Thread nD τ) arg6 fullShare (k2_pay2 i x0 x1 (k2_pay1 (F := F)))) -∗ K ⟨⟩))
      ⊢ wp frame (wpE (defs₀ (F := F)) Variants.none c none) E
          (cc2__scatter_kernel i arg2 harg2 arg3 harg3 arg4 harg4 arg5 harg5 arg6 harg6) K := by
  simp only [cc2__scatter_kernel_eq_skeleton]; unfold cc2__scatter_kernel_skel
  unfold owns
  iintro ⟨⟨%f0, %hf0, H0⟩, ⟨%f1, %hf1, H1⟩, ⟨%d4, %f4, -, H4⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H4
  ipureintro
  rw [read_writes_cons_whole2 _ _ zeros2_2]
  sl_unfold_run_names
  simp only [View.readAt_eq_ld, harg2.read_unread, harg3.read_unread, ld_whole2 (S := S1x5120) zeros2_2,
    ld_whole2 (S := S5120x128) zeros2_2, View.readCov_cons_toLoadRect]

/-- `0 < kc < 124`: the scratch at `a` gains one product. -/
theorem runMid2 (c : Dev nD) (i : grid2.Coords)
    (arg2 : Memref sig .tc .vmem S1x5120 .i32) (harg2 : arg2.IsWhole)
    (arg3 : Memref sig .tc .vmem S5120x128 .bf16) (harg3 : arg3.IsWhole)
    (arg4 : Memref sig .tc .vmem S1x128 .f32) (harg4 : arg4.IsWhole)
    (arg5 : Memref sig .tc .vmem S2048x128 .f32) (harg5 : arg5.IsWhole)
    (arg6 : Memref sig .tc .vmem S2048x128 .f32) (harg6 : arg6.IsWhole)
    (hc0 : ¬ cond2_0 i) (hc1 : ¬ k2_cond2 i = 1#1)
    (x0 : Vec F S1x5120 .i32) (x1 : Vec F S5120x128 .bf16) (a : Vec F S2048x128 .f32)
    (E : Set ℕ) (K : PUnit → sProp 𝕄) :
    iprop(owns (c : Thread nD τ) arg2 fullShare x0 ∗ owns (c : Thread nD τ) arg3 fullShare x1
        ∗ owns (c : Thread nD τ) arg6 fullShare a
        ∗ (iprop(owns (c : Thread nD τ) arg2 fullShare x0 ∗ owns (c : Thread nD τ) arg3 fullShare x1
            ∗ owns (c : Thread nD τ) arg6 fullShare (k2_pay2 i x0 x1 a)) -∗ K ⟨⟩))
      ⊢ wp frame (wpE (defs₀ (F := F)) Variants.none c none) E
          (cc2__scatter_kernel i arg2 harg2 arg3 harg3 arg4 harg4 arg5 harg5 arg6 harg6) K := by
  simp only [cc2__scatter_kernel_eq_skeleton]; unfold cc2__scatter_kernel_skel
  unfold owns
  iintro ⟨⟨%f0, %hf0, H0⟩, ⟨%f1, %hf1, H1⟩, ⟨%f4, %hf4, H4⟩, Hk⟩
  obtain rfl := harg2.eq_unread hf0; obtain rfl := harg3.eq_unread hf1; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H4
  ipureintro
  rw [read_writes_cons_whole2 _ _ zeros2_2]
  simp only [View.readAt_eq_ld, harg2.read_unread, harg3.read_unread, harg6.read_unread,
    ld_whole2 (S := S1x5120) zeros2_2, ld_whole2 (S := S5120x128) zeros2_2, ld_whole2 (S := S2048x128) zeros2_2]

/-- `kc = 124`: the scratch at `a` gains the last product, and the output buffer ends at that sum plus the bias row. -/
theorem runLast2 (c : Dev nD) (i : grid2.Coords)
    (arg2 : Memref sig .tc .vmem S1x5120 .i32) (harg2 : arg2.IsWhole)
    (arg3 : Memref sig .tc .vmem S5120x128 .bf16) (harg3 : arg3.IsWhole)
    (arg4 : Memref sig .tc .vmem S1x128 .f32) (harg4 : arg4.IsWhole)
    (arg5 : Memref sig .tc .vmem S2048x128 .f32) (harg5 : arg5.IsWhole)
    (arg6 : Memref sig .tc .vmem S2048x128 .f32) (harg6 : arg6.IsWhole)
    (hc0 : ¬ cond2_0 i) (hc1 : k2_cond2 i = 1#1)
    (x0 : Vec F S1x5120 .i32) (x1 : Vec F S5120x128 .bf16) (x2 : Vec F S1x128 .f32) (a : Vec F S2048x128 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare a
        ∗ (iprop(owns (c : Thread nD τ) arg2 fullShare x0 ∗ owns (c : Thread nD τ) arg3 fullShare x1
            ∗ owns (c : Thread nD τ) arg4 fullShare x2
            ∗ owns (c : Thread nD τ) arg5 fullShare (k2_pay3 (k2_pay2 i x0 x1 a) x2)
            ∗ owns (c : Thread nD τ) arg6 fullShare (k2_pay2 i x0 x1 a)) -∗ K ⟨⟩))
      ⊢ wp frame (wpE (defs₀ (F := F)) Variants.none c none) E
          (cc2__scatter_kernel i arg2 harg2 arg3 harg3 arg4 harg4 arg5 harg5 arg6 harg6) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2
  obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [read_writes_cons_whole2 _ _ zeros2_2]
    sl_unfold_run_names
    simp only [View.readAt_eq_ld, harg2.read_unread, harg3.read_unread, harg4.read_unread, harg6.read_unread,
      ld_whole2 (S := S1x5120) zeros2_2, ld_whole2 (S := S5120x128) zeros2_2, ld_whole2 (S := S2048x128) zeros2_2,
      ld_whole2 (S := S1x128) zeros2_2, View.readCov_cons_toLoadRect]
  iexists _; isplitr
  swap; · iexact H4
  ipureintro
  sl_unfold_run_names
  rw [read_writes_cons_whole2 _ _ zeros2_2]
  simp only [View.readAt_eq_ld, harg2.read_unread, harg3.read_unread, harg6.read_unread,
    ld_whole2 (S := S1x5120) zeros2_2, ld_whole2 (S := S5120x128) zeros2_2, ld_whole2 (S := S2048x128) zeros2_2]

/-- Regions 2 and 5 run one kernel: the rewrite that reads either region's body as this one's. -/
theorem same_kernel2 : cc2__scatter_kernel (F := F) = cc2__scatter_kernel := rfl
theorem same_kernel5 : cc5__scatter_kernel (F := F) = cc2__scatter_kernel := rfl

end Cert.Kernel.Hand

end
-- ==== Proof.K.R2.lean ====
import proofs.«425587_j43765716746405_1_alg».proof.Proof.K.T2

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- One point's update of the scratch: the product of the point's index block and message block, added to `a`. -/
abbrev step2 (c : Dev nD) (t : Fin cfg2.N) (a : Vec F S2048x128 .f32) : Vec F S2048x128 .f32 :=
  k2_pay2 (grid2.coords t) (iblk2 V c 0 t) (iblk2 V c 1 t) a

/-- The scratch after the body at point `n`: the running sum over `kc` of the products of row block `nb`, restarted from
    zero wherever `kc = 0`. -/
def accAt2 (c : Dev nD) : (n : ℕ) → n < cfg2.N → Vec F S2048x128 .f32
  | 0, hn => step2 V c ⟨0, hn⟩ (k2_pay1 (F := F))
  | n + 1, hn => step2 V c ⟨n + 1, hn⟩ (if (n + 1) % 125 = 0 then k2_pay1 (F := F) else accAt2 c n (Nat.lt_of_succ_lt hn))

theorem accAt2_first (c : Dev nD) (t : Fin cfg2.N) (h : t.val % 125 = 0) :
    accAt2 V c t.val t.isLt = k2_pay2 (grid2.coords t) (iblk2 V c 0 t) (iblk2 V c 1 t) (k2_pay1 (F := F)) := by
  obtain ⟨n, hn⟩ := t
  cases n with
  | zero => rfl
  | succ n => show step2 V c ⟨n + 1, hn⟩ (if (n + 1) % 125 = 0 then _ else _) = _; rw [if_pos h]

/-- What the point before `t` left in the scratch. -/
abbrev prev2 (c : Dev nD) (t : Fin cfg2.N) : Vec F S2048x128 .f32 :=
  accAt2 V c (t.val - 1) (Nat.lt_of_le_of_lt (Nat.sub_le _ _) t.isLt)

theorem accAt2_next (c : Dev nD) (t : Fin cfg2.N) (h : t.val % 125 ≠ 0) :
    accAt2 V c t.val t.isLt = k2_pay2 (grid2.coords t) (iblk2 V c 0 t) (iblk2 V c 1 t) (prev2 V c t) := by
  obtain ⟨n, hn⟩ := t
  cases n with
  | zero => exact absurd (Nat.zero_mod 125) h
  | succ n => show step2 V c ⟨n + 1, hn⟩ (if (n + 1) % 125 = 0 then _ else _) = _; rw [if_neg h]; rfl

abbrev scr2 : Memref sig .tc .vmem S2048x128 .f32 := Memref.whole cc2_scratch0

/-- The scratch before point `n`: anything before the first point, then what the point before left. -/
def scrAt2 (c : Dev nD) : (n : ℕ) → n < cfg2.N + 1 → sProp 𝕄
  | 0, _ => iprop(∃ X, owns (c : Thread nD τ) scr2 fullShare X)
  | n + 1, hn => owns (c : Thread nD τ) scr2 fullShare (accAt2 V c n (Nat.lt_of_succ_lt_succ hn))

theorem scrAt2_some (c : Dev nD) (n : ℕ) (hn : n < cfg2.N + 1) :
    scrAt2 V c n hn ⊢ iprop(∃ X, owns (c : Thread nD τ) scr2 fullShare X) := by
  cases n with
  | zero => exact .rfl
  | succ n => unfold scrAt2; iintro H; iexists _; iexact H

theorem scrAt2_cast (c : Dev nD) (t : Fin cfg2.N) (h0 : t.val ≠ 0) :
    scrAt2 V c t.castSucc.val t.castSucc.isLt = owns (c : Thread nD τ) scr2 fullShare (prev2 V c t) := by
  obtain ⟨n, hn⟩ := t
  cases n with
  | zero => exact absurd rfl h0
  | succ n => rfl

/-- The proof data: after the body at point `t` the inputs are their blocks and the output block is the scratch's sum plus
    the bias row; between points the scratch holds its running sum. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (accAt2 V c t.val t.isLt) (iblk2 V c 2 t)
  Φ t := iprop(scrAt2 V c t.val t.isLt
    ∗ Pipeline.scopedRestBut (Ix := Unit) (Name := ℕ) (U := UR sig nD τ) (Lvl := ℕ) (Val := Elt F) spec2 c [cc2_scratch0]
    ∗ ∃ r, prngReg c r)
  q _ := fullShare
  owed _ := 0

theorem A_eq2 (c : Dev nD) (w : Fin cfg2.W) : (dat2 V c).A w = V c (Pipeline.arrRef spec2 w) := rfl
theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = iblk2 V c 2 t := rfl
theorem after2_3 (c : Dev nD) (t : Fin cfg2.N) :
    (dat2 V c).after 3 t = k2_pay3 (accAt2 V c t.val t.isLt) (iblk2 V c 2 t) := rfl

theorem inv2_eq (c : Dev nD) (t : Fin (cfg2.N + 1)) : (dat2 V c).Φ t = iprop(scrAt2 V c t.val t.isLt
    ∗ Pipeline.scopedRestBut (Ix := Unit) (Name := ℕ) (U := UR sig nD τ) (Lvl := ℕ) (Val := Elt F) spec2 c [cc2_scratch0]
    ∗ ∃ r, prngReg c r) := rfl

/-- On entry the scratch holds anything, -/
theorem inv2_in (c : Dev nD) : (Pipeline.ΦA spec2 c : sProp 𝕄) ⊢ (dat2 V c).Φ 0 := by
  rw [inv2_eq]; unfold Pipeline.ΦA; rw [scopedRest2_split]
  show _ ⊢ iprop(iprop(∃ X, owns (c : Thread nD τ) scr2 fullShare X) ∗ _ ∗ _)
  iintro ⟨⟨⟨%f, Hs⟩, Hr⟩, Hp⟩
  iframe
  iexists f; rw [owns_whole]; iexact Hs

theorem scr2_forget (c : Dev nD) (X : Vec F S2048x128 .f32) :
    (owns (c : Thread nD τ) scr2 fullShare X : sProp 𝕄)
      ⊢ iprop(∃ f : Buf (Elt F) ((c : Thread nD τ).loc cc2_scratch0), ((c : Thread nD τ).loc cc2_scratch0) ↦{fullShare} f) := by
  rw [owns_whole]; iintro H; iexists X; iexact H

/-- and on exit its contents are forgotten. -/
theorem inv2_out (c : Dev nD) : (dat2 V c).Φ (Fin.last cfg2.N) ⊢ (Pipeline.ΦA spec2 c : sProp 𝕄) := by
  rw [inv2_eq]; unfold Pipeline.ΦA; rw [scopedRest2_split]
  iintro ⟨Hs, Hr, Hp⟩
  iframe
  ihave Hs' := (scrAt2_some V c _ _) $$ Hs
  icases Hs' with ⟨%X, Hs'⟩
  iapply (scr2_forget c X) $$ Hs'

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

/-- What the body is given at point `t`. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- Where `kc ≠ 124` the output block is untouched and the scratch gains one product, over zero if `kc = 0` and over the sum of
    the point before otherwise. -/
theorem sound_idle2 (c : Dev nD) (t : Fin cfg2.N) (h : ¬ t.val % 125 = 124) :
    bodyPre2 V c t ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)
        ∗ (∃ d, owns (c : Thread nD τ) (st2_3 t) fullShare ((dat2 V c).before 3 t d)))) := by
  unfold bodyPre2 bodyAt2
  rw [same_kernel2]
  simp only [before2_0, before2_1, before2_2]
  rw [show (dat2 V c).owesAt () t.succ = (dat2 V c).owesAt () t.castSucc from rfl, after2_0, after2_1, after2_2,
    inv2_eq, inv2_eq, show scrAt2 V c t.succ.val t.succ.isLt = owns (c : Thread nD τ) scr2 fullShare (accAt2 V c t.val t.isLt) from rfl]
  have hk : ¬ k2_cond2 (grid2.coords t) = 1#1 := fun hk => h ((hcond2_1 t).mp hk)
  by_cases h0 : t.val % 125 = 0
  · rw [accAt2_first V c t h0]
    refine .trans ?_ (runFirst2 c (grid2.coords t) _ _ _ _ _ _ _ _ _ _ ((hcond2_0 t).mpr h0) hk (iblk2 V c 0 t) (iblk2 V c 1 t) Set.univ _)
    iintro ⟨⟨Hs, Hr, Hp⟩, Ho, ⟨%d0, H0⟩, ⟨%d1, H1⟩, ⟨%d2, H2⟩, H3⟩
    ihave Hs' := (scrAt2_some V c _ _) $$ Hs
    iframe H0 H1 Hs'
    iintro ⟨H0, H1, Hs⟩
    iframe
  · have ht0 : t.val ≠ 0 := fun e => h0 (by rw [e])
    rw [accAt2_next V c t h0, scrAt2_cast V c t ht0]
    refine .trans ?_ (runMid2 c (grid2.coords t) _ _ _ _ _ _ _ _ _ _ (fun hc => h0 ((hcond2_0 t).mp hc)) hk (iblk2 V c 0 t) (iblk2 V c 1 t) (prev2 V c t) Set.univ _)
    iintro ⟨⟨Hs, Hr, Hp⟩, Ho, ⟨%d0, H0⟩, ⟨%d1, H1⟩, ⟨%d2, H2⟩, H3⟩
    iframe H0 H1 Hs
    iintro ⟨H0, H1, Hs⟩
    iframe

/-- Where `kc = 124` the scratch gains the row block's last product and the output block ends at that sum plus the bias row. -/
theorem sound_last2 (c : Dev nD) (t : Fin cfg2.N) (h : t.val % 125 = 124) :
    bodyPre2 V c t ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)
        ∗ owns (c : Thread nD τ) (st2_3 t) fullShare ((dat2 V c).after 3 t))) := by
  unfold bodyPre2 bodyAt2
  rw [same_kernel2]
  simp only [before2_0, before2_1, before2_2]
  have h0 : ¬ t.val % 125 = 0 := by omega
  have ht0 : t.val ≠ 0 := fun e => h0 (by rw [e])
  rw [show (dat2 V c).owesAt () t.succ = (dat2 V c).owesAt () t.castSucc from rfl, after2_0, after2_1, after2_2, after2_3,
    inv2_eq, inv2_eq, show scrAt2 V c t.succ.val t.succ.isLt = owns (c : Thread nD τ) scr2 fullShare (accAt2 V c t.val t.isLt) from rfl,
    accAt2_next V c t h0, scrAt2_cast V c t ht0]
  refine .trans ?_ (runLast2 c (grid2.coords t) _ _ _ _ _ _ _ _ _ _ (fun hc => h0 ((hcond2_0 t).mp hc)) ((hcond2_1 t).mpr h)
    (iblk2 V c 0 t) (iblk2 V c 1 t) (iblk2 V c 2 t) (prev2 V c t) Set.univ _)
  iintro ⟨⟨Hs, Hr, Hp⟩, Ho, ⟨%d0, H0⟩, ⟨%d1, H1⟩, ⟨%d2, H2⟩, ⟨%d3, H3⟩⟩
  iframe H0 H1 H2 Hs
  isplitl [H3]; · iexists _; iexact H3
  iintro ⟨H0, H1, H2, H3, Hs⟩
  iframe

/-- The body obligation at every point: the output block is stored exactly where `kc = 124`. -/
theorem body_obligation2 (c : Dev nD) : BodyObligation (dat2 (F := F) V c) (defs₀ (F := F)) Variants.none () Set.univ := fun t => by
  rw [bigSep_W2, bigSep_W2]
  by_cases h : t.val % 125 = 124
  · have hidle : idle2 3 (grid2.coords t) = false := by
      show (!(k2_cond2 (grid2.coords t) == 1#1)) = false
      rw [(hcond2_1 t).mpr h]; rfl
    simp only [hidle]
    exact sound_last2 V c t h
  · have hidle : idle2 3 (grid2.coords t) = true := by
      show (!(k2_cond2 (grid2.coords t) == 1#1)) = true
      rw [Bool.not_eq_true', beq_eq_false_iff_ne]
      exact fun hk => h ((hcond2_1 t).mp hk)
    have hflush : (win2 3).flush t = false := Bool.eq_false_iff.mpr fun hf => h ((flush2_3 t).mp hf)
    simp only [hidle, hflush]
    exact sound_idle2 V c t h

end Cert.Kernel.Hand

end
-- ==== Proof.K.R3.lean ====
import proofs.«425587_j43765716746405_1_alg».proof.Proof.K.T0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The proof data: after the body at point `t` the inputs are their blocks and the output block is the product of the two. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out0_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl
theorem after3_0 (c : Dev nD) (t : Fin cfg3.N) : (dat3 V c).after 0 t = iblk3 V c 0 t := rfl
theorem after3_1 (c : Dev nD) (t : Fin cfg3.N) : (dat3 V c).after 1 t = iblk3 V c 1 t := rfl
theorem after3_2 (c : Dev nD) (t : Fin cfg3.N) : (dat3 V c).after 2 t = out0_2 (iblk3 V c 0 t) (iblk3 V c 1 t) := by
  dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

/-- What the body is given at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The inputs hold their blocks, so the body's triple applies; the rest passes through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [same_kernel3]
  simp only [before3_0, before3_1]
  rw [show (dat3 V c).Φ t.succ = (dat3 V c).Φ t.castSucc from rfl,
    show (dat3 V c).owesAt () t.succ = (dat3 V c).owesAt () t.castSucc from rfl, after3_0, after3_1, after3_2]
  refine .trans ?_ (sound_kernel0 c Set.univ _ _ _ _ _ _ _ (iblk3 V c 0 t) (iblk3 V c 1 t) _)
  iintro ⟨HΦ, Ho, ⟨%d0, H0⟩, ⟨%d1, H1⟩, ⟨%d2, H2⟩⟩
  iframe H0 H1
  isplitl [H2]; · iexists _; iexact H2
  iintro ⟨H0, H1, H2⟩
  iframe

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
import proofs.«425587_j43765716746405_1_alg».proof.Proof.K.T1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The proof data: after the body at point `t` the inputs are their blocks and the output block is `out1_3` of the three. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out1_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl
theorem after4_0 (c : Dev nD) (t : Fin cfg4.N) : (dat4 V c).after 0 t = iblk4 V c 0 t := rfl
theorem after4_1 (c : Dev nD) (t : Fin cfg4.N) : (dat4 V c).after 1 t = iblk4 V c 1 t := rfl
theorem after4_2 (c : Dev nD) (t : Fin cfg4.N) : (dat4 V c).after 2 t = iblk4 V c 2 t := rfl
theorem after4_3 (c : Dev nD) (t : Fin cfg4.N) :
    (dat4 V c).after 3 t = out1_3 (iblk4 V c 0 t) (iblk4 V c 1 t) (iblk4 V c 2 t) := rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

/-- The inputs hold their blocks, so the body's triple applies; the rest passes through. -/
theorem step4 (c : Dev nD) (t : Fin cfg4.N) :
    iprop((dat4 V c).Φ t.castSucc ∗ (dat4 V c).owesAt () t.castSucc
        ∗ (∃ d, owns (c : Thread nD τ) (st4_0 t) fullShare ((dat4 V c).before 0 t d))
        ∗ (∃ d, owns (c : Thread nD τ) (st4_1 t) fullShare ((dat4 V c).before 1 t d))
        ∗ (∃ d, owns (c : Thread nD τ) (st4_2 t) fullShare ((dat4 V c).before 2 t d))
        ∗ (∃ d, owns (c : Thread nD τ) (st4_3 t) fullShare ((dat4 V c).before 3 t d)))
      ⊢ wp frame (wpE (defs₀ (F := F)) Variants.none c none) Set.univ (bodyAt4 t) fun _ =>
          iprop((dat4 V c).Φ t.succ ∗ (dat4 V c).owesAt () t.succ
            ∗ owns (c : Thread nD τ) (st4_0 t) fullShare ((dat4 V c).after 0 t)
            ∗ owns (c : Thread nD τ) (st4_1 t) fullShare ((dat4 V c).after 1 t)
            ∗ owns (c : Thread nD τ) (st4_2 t) fullShare ((dat4 V c).after 2 t)
            ∗ owns (c : Thread nD τ) (st4_3 t) fullShare ((dat4 V c).after 3 t)) := by
  unfold bodyAt4
  rw [same_kernel4]
  simp only [before4_0, before4_1, before4_2]
  rw [after4_0, after4_1, after4_2, after4_3, show (dat4 V c).Φ t.succ = (dat4 V c).Φ t.castSucc from rfl,
    show (dat4 V c).owesAt () t.succ = (dat4 V c).owesAt () t.castSucc from rfl]
  refine .trans ?_ (triple1 c Set.univ _ _ _ _ _ _ _ _ _ (iblk4 V c 0 t) (iblk4 V c 1 t) (iblk4 V c 2 t) _)
  iintro ⟨HΦ, Ho, ⟨%d0, H0⟩, ⟨%d1, H1⟩, ⟨%d2, H2⟩, ⟨%d3, H3⟩⟩
  iframe H0 H1 H2
  isplitl [H3]; · iexists _; iexact H3
  iintro ⟨H0, H1, H2, H3⟩
  iframe

theorem body_obligation4 (c : Dev nD) : BodyObligation (dat4 (F := F) V c) (defs₀ (F := F)) Variants.none () Set.univ := fun t => by
  rw [bigSep_W4, bigSep_W4]
  exact step4 V c t

end Cert.Kernel.Hand

end
-- ==== Proof.K.R5.lean ====
import proofs.«425587_j43765716746405_1_alg».proof.Proof.K.T2

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- One point's update of the scratch: the product of the point's index block and message block, added to `a`. -/
abbrev step5 (c : Dev nD) (t : Fin cfg5.N) (a : Vec F S2048x128 .f32) : Vec F S2048x128 .f32 :=
  k2_pay2 (grid5.coords t) (iblk5 V c 0 t) (iblk5 V c 1 t) a

/-- The scratch after the body at point `n`: the running sum over `kc` of the products of row block `nb`, restarted from
    zero wherever `kc = 0`. -/
def accAt5 (c : Dev nD) : (n : ℕ) → n < cfg5.N → Vec F S2048x128 .f32
  | 0, hn => step5 V c ⟨0, hn⟩ (k2_pay1 (F := F))
  | n + 1, hn => step5 V c ⟨n + 1, hn⟩ (if (n + 1) % 125 = 0 then k2_pay1 (F := F) else accAt5 c n (Nat.lt_of_succ_lt hn))

theorem accAt5_first (c : Dev nD) (t : Fin cfg5.N) (h : t.val % 125 = 0) :
    accAt5 V c t.val t.isLt = k2_pay2 (grid5.coords t) (iblk5 V c 0 t) (iblk5 V c 1 t) (k2_pay1 (F := F)) := by
  obtain ⟨n, hn⟩ := t
  cases n with
  | zero => rfl
  | succ n => show step5 V c ⟨n + 1, hn⟩ (if (n + 1) % 125 = 0 then _ else _) = _; rw [if_pos h]

/-- What the point before `t` left in the scratch. -/
abbrev prev5 (c : Dev nD) (t : Fin cfg5.N) : Vec F S2048x128 .f32 :=
  accAt5 V c (t.val - 1) (Nat.lt_of_le_of_lt (Nat.sub_le _ _) t.isLt)

theorem accAt5_next (c : Dev nD) (t : Fin cfg5.N) (h : t.val % 125 ≠ 0) :
    accAt5 V c t.val t.isLt = k2_pay2 (grid5.coords t) (iblk5 V c 0 t) (iblk5 V c 1 t) (prev5 V c t) := by
  obtain ⟨n, hn⟩ := t
  cases n with
  | zero => exact absurd (Nat.zero_mod 125) h
  | succ n => show step5 V c ⟨n + 1, hn⟩ (if (n + 1) % 125 = 0 then _ else _) = _; rw [if_neg h]; rfl

abbrev scr5 : Memref sig .tc .vmem S2048x128 .f32 := Memref.whole cc5_scratch0

/-- The scratch before point `n`: anything before the first point, then what the point before left. -/
def scrAt5 (c : Dev nD) : (n : ℕ) → n < cfg5.N + 1 → sProp 𝕄
  | 0, _ => iprop(∃ X, owns (c : Thread nD τ) scr5 fullShare X)
  | n + 1, hn => owns (c : Thread nD τ) scr5 fullShare (accAt5 V c n (Nat.lt_of_succ_lt_succ hn))

theorem scrAt5_some (c : Dev nD) (n : ℕ) (hn : n < cfg5.N + 1) :
    scrAt5 V c n hn ⊢ iprop(∃ X, owns (c : Thread nD τ) scr5 fullShare X) := by
  cases n with
  | zero => exact .rfl
  | succ n => unfold scrAt5; iintro H; iexists _; iexact H

theorem scrAt5_cast (c : Dev nD) (t : Fin cfg5.N) (h0 : t.val ≠ 0) :
    scrAt5 V c t.castSucc.val t.castSucc.isLt = owns (c : Thread nD τ) scr5 fullShare (prev5 V c t) := by
  obtain ⟨n, hn⟩ := t
  cases n with
  | zero => exact absurd rfl h0
  | succ n => rfl

/-- The proof data: after the body at point `t` the inputs are their blocks and the output block is the scratch's sum plus
    the bias row; between points the scratch holds its running sum. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k2_pay3 (accAt5 V c t.val t.isLt) (iblk5 V c 2 t)
  Φ t := iprop(scrAt5 V c t.val t.isLt
    ∗ Pipeline.scopedRestBut (Ix := Unit) (Name := ℕ) (U := UR sig nD τ) (Lvl := ℕ) (Val := Elt F) spec5 c [cc5_scratch0]
    ∗ ∃ r, prngReg c r)
  q _ := fullShare
  owed _ := 0

theorem A_eq5 (c : Dev nD) (w : Fin cfg5.W) : (dat5 V c).A w = V c (Pipeline.arrRef spec5 w) := rfl
theorem after5_0 (c : Dev nD) (t : Fin cfg5.N) : (dat5 V c).after 0 t = iblk5 V c 0 t := rfl
theorem after5_1 (c : Dev nD) (t : Fin cfg5.N) : (dat5 V c).after 1 t = iblk5 V c 1 t := rfl
theorem after5_2 (c : Dev nD) (t : Fin cfg5.N) : (dat5 V c).after 2 t = iblk5 V c 2 t := rfl
theorem after5_3 (c : Dev nD) (t : Fin cfg5.N) :
    (dat5 V c).after 3 t = k2_pay3 (accAt5 V c t.val t.isLt) (iblk5 V c 2 t) := rfl

theorem inv5_eq (c : Dev nD) (t : Fin (cfg5.N + 1)) : (dat5 V c).Φ t = iprop(scrAt5 V c t.val t.isLt
    ∗ Pipeline.scopedRestBut (Ix := Unit) (Name := ℕ) (U := UR sig nD τ) (Lvl := ℕ) (Val := Elt F) spec5 c [cc5_scratch0]
    ∗ ∃ r, prngReg c r) := rfl

/-- On entry the scratch holds anything, -/
theorem inv5_in (c : Dev nD) : (Pipeline.ΦA spec5 c : sProp 𝕄) ⊢ (dat5 V c).Φ 0 := by
  rw [inv5_eq]; unfold Pipeline.ΦA; rw [scopedRest5_split]
  show _ ⊢ iprop(iprop(∃ X, owns (c : Thread nD τ) scr5 fullShare X) ∗ _ ∗ _)
  iintro ⟨⟨⟨%f, Hs⟩, Hr⟩, Hp⟩
  iframe
  iexists f; rw [owns_whole]; iexact Hs

theorem scr5_forget (c : Dev nD) (X : Vec F S2048x128 .f32) :
    (owns (c : Thread nD τ) scr5 fullShare X : sProp 𝕄)
      ⊢ iprop(∃ f : Buf (Elt F) ((c : Thread nD τ).loc cc5_scratch0), ((c : Thread nD τ).loc cc5_scratch0) ↦{fullShare} f) := by
  rw [owns_whole]; iintro H; iexists X; iexact H

/-- and on exit its contents are forgotten. -/
theorem inv5_out (c : Dev nD) : (dat5 V c).Φ (Fin.last cfg5.N) ⊢ (Pipeline.ΦA spec5 c : sProp 𝕄) := by
  rw [inv5_eq]; unfold Pipeline.ΦA; rw [scopedRest5_split]
  iintro ⟨Hs, Hr, Hp⟩
  iframe
  ihave Hs' := (scrAt5_some V c _ _) $$ Hs
  icases Hs' with ⟨%X, Hs'⟩
  iapply (scr5_forget c X) $$ Hs'

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d

/-- What the body is given at point `t`. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- Where `kc ≠ 124` the output block is untouched and the scratch gains one product, over zero if `kc = 0` and over the sum of
    the point before otherwise. -/
theorem sound_idle5 (c : Dev nD) (t : Fin cfg5.N) (h : ¬ t.val % 125 = 124) :
    bodyPre5 V c t ⊢ wp frame (wpE (defs₀ (F := F)) Variants.none c none) Set.univ (bodyAt5 t) (fun _ =>
      iprop((dat5 V c).Φ t.succ ∗ (dat5 V c).owesAt () t.succ
        ∗ owns (c : Thread nD τ) (st5_0 t) fullShare ((dat5 V c).after 0 t)
        ∗ owns (c : Thread nD τ) (st5_1 t) fullShare ((dat5 V c).after 1 t)
        ∗ owns (c : Thread nD τ) (st5_2 t) fullShare ((dat5 V c).after 2 t)
        ∗ (∃ d, owns (c : Thread nD τ) (st5_3 t) fullShare ((dat5 V c).before 3 t d)))) := by
  unfold bodyPre5 bodyAt5
  rw [same_kernel5]
  simp only [before5_0, before5_1, before5_2]
  rw [show (dat5 V c).owesAt () t.succ = (dat5 V c).owesAt () t.castSucc from rfl, after5_0, after5_1, after5_2,
    inv5_eq, inv5_eq, show scrAt5 V c t.succ.val t.succ.isLt = owns (c : Thread nD τ) scr5 fullShare (accAt5 V c t.val t.isLt) from rfl]
  have hk : ¬ k2_cond2 (grid5.coords t) = 1#1 := fun hk => h ((hcond2_1 t).mp hk)
  by_cases h0 : t.val % 125 = 0
  · rw [accAt5_first V c t h0]
    refine .trans ?_ (runFirst2 c (grid5.coords t) _ _ _ _ _ _ _ _ _ _ ((hcond2_0 t).mpr h0) hk (iblk5 V c 0 t) (iblk5 V c 1 t) Set.univ _)
    iintro ⟨⟨Hs, Hr, Hp⟩, Ho, ⟨%d0, H0⟩, ⟨%d1, H1⟩, ⟨%d2, H2⟩, H3⟩
    ihave Hs' := (scrAt5_some V c _ _) $$ Hs
    iframe H0 H1 Hs'
    iintro ⟨H0, H1, Hs⟩
    iframe
  · have ht0 : t.val ≠ 0 := fun e => h0 (by rw [e])
    rw [accAt5_next V c t h0, scrAt5_cast V c t ht0]
    refine .trans ?_ (runMid2 c (grid5.coords t) _ _ _ _ _ _ _ _ _ _ (fun hc => h0 ((hcond2_0 t).mp hc)) hk (iblk5 V c 0 t) (iblk5 V c 1 t) (prev5 V c t) Set.univ _)
    iintro ⟨⟨Hs, Hr, Hp⟩, Ho, ⟨%d0, H0⟩, ⟨%d1, H1⟩, ⟨%d2, H2⟩, H3⟩
    iframe H0 H1 Hs
    iintro ⟨H0, H1, Hs⟩
    iframe

/-- Where `kc = 124` the scratch gains the row block's last product and the output block ends at that sum plus the bias row. -/
theorem sound_last5 (c : Dev nD) (t : Fin cfg5.N) (h : t.val % 125 = 124) :
    bodyPre5 V c t ⊢ wp frame (wpE (defs₀ (F := F)) Variants.none c none) Set.univ (bodyAt5 t) (fun _ =>
      iprop((dat5 V c).Φ t.succ ∗ (dat5 V c).owesAt () t.succ
        ∗ owns (c : Thread nD τ) (st5_0 t) fullShare ((dat5 V c).after 0 t)
        ∗ owns (c : Thread nD τ) (st5_1 t) fullShare ((dat5 V c).after 1 t)
        ∗ owns (c : Thread nD τ) (st5_2 t) fullShare ((dat5 V c).after 2 t)
        ∗ owns (c : Thread nD τ) (st5_3 t) fullShare ((dat5 V c).after 3 t))) := by
  unfold bodyPre5 bodyAt5
  rw [same_kernel5]
  simp only [before5_0, before5_1, before5_2]
  have h0 : ¬ t.val % 125 = 0 := by omega
  have ht0 : t.val ≠ 0 := fun e => h0 (by rw [e])
  rw [show (dat5 V c).owesAt () t.succ = (dat5 V c).owesAt () t.castSucc from rfl, after5_0, after5_1, after5_2, after5_3,
    inv5_eq, inv5_eq, show scrAt5 V c t.succ.val t.succ.isLt = owns (c : Thread nD τ) scr5 fullShare (accAt5 V c t.val t.isLt) from rfl,
    accAt5_next V c t h0, scrAt5_cast V c t ht0]
  refine .trans ?_ (runLast2 c (grid5.coords t) _ _ _ _ _ _ _ _ _ _ (fun hc => h0 ((hcond2_0 t).mp hc)) ((hcond2_1 t).mpr h)
    (iblk5 V c 0 t) (iblk5 V c 1 t) (iblk5 V c 2 t) (prev5 V c t) Set.univ _)
  iintro ⟨⟨Hs, Hr, Hp⟩, Ho, ⟨%d0, H0⟩, ⟨%d1, H1⟩, ⟨%d2, H2⟩, ⟨%d3, H3⟩⟩
  iframe H0 H1 H2 Hs
  isplitl [H3]; · iexists _; iexact H3
  iintro ⟨H0, H1, H2, H3, Hs⟩
  iframe

/-- The body obligation at every point: the output block is stored exactly where `kc = 124`. -/
theorem body_obligation5 (c : Dev nD) : BodyObligation (dat5 (F := F) V c) (defs₀ (F := F)) Variants.none () Set.univ := fun t => by
  rw [bigSep_W5, bigSep_W5]
  by_cases h : t.val % 125 = 124
  · have hidle : idle5 3 (grid5.coords t) = false := by
      show (!(k2_cond2 (grid5.coords t) == 1#1)) = false
      rw [(hcond2_1 t).mpr h]; rfl
    simp only [hidle]
    exact sound_last5 V c t h
  · have hidle : idle5 3 (grid5.coords t) = true := by
      show (!(k2_cond2 (grid5.coords t) == 1#1)) = true
      rw [Bool.not_eq_true', beq_eq_false_iff_ne]
      exact fun hk => h ((hcond2_1 t).mp hk)
    have hflush : (win5 3).flush t = false := Bool.eq_false_iff.mpr fun hf => h ((flush5_3 t).mp hf)
    simp only [hidle, hflush]
    exact sound_idle5 V c t h

end Cert.Kernel.Hand

end
-- ==== Proof.K.Stages.lean ====
import proofs.«425587_j43765716746405_1_alg».proof.Proof.Gen.Kernel.Regions
import proofs.«425587_j43765716746405_1_alg».proof.Proof.K.R0
import proofs.«425587_j43765716746405_1_alg».proof.Proof.K.R1
import proofs.«425587_j43765716746405_1_alg».proof.Proof.K.R2
import proofs.«425587_j43765716746405_1_alg».proof.Proof.K.R3
import proofs.«425587_j43765716746405_1_alg».proof.Proof.K.R4
import proofs.«425587_j43765716746405_1_alg».proof.Proof.K.R5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev tc (W : Dev nD → Valuation τ sig (Elt F)) : (c : Dev nD) → (b : Ref sig .tc) → Buf (Elt F) ((c : Thread nD τ).loc b) :=
  fun c b => W c b

/-! The buffers' contents between the program's items: what each host stretch computes, and after a kernel region the same
    with the region's output array replaced. -/

abbrev U5 : Dev nD → Valuation τ sig (Elt F) := fun c => Gen.V5 m c
def X6 (c : Dev nD) : Valuation τ sig (Elt F) :=
  Function.update (U5 m c) main_v34 ((dat0 (tc (U5 m)) c).arrAt 2 cfg0.N)
def X7 (c : Dev nD) : Valuation τ sig (Elt F) :=
  Function.update (X6 m c) main_v35 ((dat1 (tc (X6 m)) c).arrAt 3 cfg1.N)
abbrev U8 : Dev nD → Valuation τ sig (Elt F) := fun c => StableHlo.after hostOps2 (X7 m c)
def X9 (c : Dev nD) : Valuation τ sig (Elt F) :=
  Function.update (U8 m c) main_v39 ((dat2 (tc (U8 m)) c).arrAt 3 cfg2.N)
abbrev U10 : Dev nD → Valuation τ sig (Elt F) := fun c => StableHlo.after hostOps3 (X9 m c)
def X11 (c : Dev nD) : Valuation τ sig (Elt F) :=
  Function.update (U10 m c) main_v42 ((dat3 (tc (U10 m)) c).arrAt 2 cfg3.N)
def X12 (c : Dev nD) : Valuation τ sig (Elt F) :=
  Function.update (X11 m c) main_v43 ((dat4 (tc (X11 m)) c).arrAt 3 cfg4.N)
abbrev U13 : Dev nD → Valuation τ sig (Elt F) := fun c => StableHlo.after hostOps5 (X12 m c)
def X14 (c : Dev nD) : Valuation τ sig (Elt F) :=
  Function.update (U13 m c) main_v47 ((dat5 (tc (U13 m)) c).arrAt 3 cfg5.N)

/-- What the regions leave, as the conditional frame's unknowns. -/
def outs : Gen.Outs (F := F) := fun J r c =>
  match J with
  | 6 => X6 m c r
  | 7 => X7 m c r
  | 9 => X9 m c r
  | 11 => X11 m c r
  | 12 => X12 m c r
  | _ => X14 m c r

theorem V6_eq (c : Dev nD) : Gen.V6 m (outs m) c = X6 m c := by
  show Function.update (Gen.V5 m c) main_v34 (X6 m c main_v34) = X6 m c
  unfold X6; rw [Function.update_self]
theorem V7_eq (c : Dev nD) : Gen.V7 m (outs m) c = X7 m c := by
  show Function.update (Gen.V6 m (outs m) c) main_v35 (X7 m c main_v35) = X7 m c
  rw [V6_eq]; unfold X7; rw [Function.update_self]
theorem V8_eq (c : Dev nD) : Gen.V8 m (outs m) c = U8 m c := by
  show StableHlo.after hostOps2 (Gen.V7 m (outs m) c) = _
  rw [V7_eq]
theorem V9_eq (c : Dev nD) : Gen.V9 m (outs m) c = X9 m c := by
  show Function.update (Gen.V8 m (outs m) c) main_v39 (X9 m c main_v39) = X9 m c
  rw [V8_eq]; unfold X9; rw [Function.update_self]
theorem V10_eq (c : Dev nD) : Gen.V10 m (outs m) c = U10 m c := by
  show StableHlo.after hostOps3 (Gen.V9 m (outs m) c) = _
  rw [V9_eq]
theorem V11_eq (c : Dev nD) : Gen.V11 m (outs m) c = X11 m c := by
  show Function.update (Gen.V10 m (outs m) c) main_v42 (X11 m c main_v42) = X11 m c
  rw [V10_eq]; unfold X11; rw [Function.update_self]
theorem V12_eq (c : Dev nD) : Gen.V12 m (outs m) c = X12 m c := by
  show Function.update (Gen.V11 m (outs m) c) main_v43 (X12 m c main_v43) = X12 m c
  rw [V11_eq]; unfold X12; rw [Function.update_self]
theorem V13_eq (c : Dev nD) : Gen.V13 m (outs m) c = U13 m c := by
  show StableHlo.after hostOps5 (Gen.V12 m (outs m) c) = _
  rw [V12_eq]
theorem V14_eq (c : Dev nD) : Gen.V14 m (outs m) c = X14 m c := by
  show Function.update (Gen.V13 m (outs m) c) main_v47 (X14 m c main_v47) = X14 m c
  rw [V13_eq]; unfold X14; rw [Function.update_self]

/-! Each region changes its one output buffer and nothing else. -/

theorem X6_out (c : Dev nD) : X6 m c main_v34 = (dat0 (tc (U5 m)) c).arrAt 2 cfg0.N :=
  Function.update_self ..
theorem X6_of (c : Dev nD) (r : Ref sig .tc) (h : r ≠ main_v34) : X6 m c r = U5 m c r :=
  Function.update_of_ne (StableHlo.devRef_ne_of_ne h) ..

theorem X7_out (c : Dev nD) : X7 m c main_v35 = (dat1 (tc (X6 m)) c).arrAt 3 cfg1.N :=
  Function.update_self ..
theorem X7_of (c : Dev nD) (r : Ref sig .tc) (h : r ≠ main_v35) : X7 m c r = X6 m c r :=
  Function.update_of_ne (StableHlo.devRef_ne_of_ne h) ..

theorem X9_out (c : Dev nD) : X9 m c main_v39 = (dat2 (tc (U8 m)) c).arrAt 3 cfg2.N :=
  Function.update_self ..
theorem X9_of (c : Dev nD) (r : Ref sig .tc) (h : r ≠ main_v39) : X9 m c r = U8 m c r :=
  Function.update_of_ne (StableHlo.devRef_ne_of_ne h) ..

theorem X11_out (c : Dev nD) : X11 m c main_v42 = (dat3 (tc (U10 m)) c).arrAt 2 cfg3.N :=
  Function.update_self ..
theorem X11_of (c : Dev nD) (r : Ref sig .tc) (h : r ≠ main_v42) : X11 m c r = U10 m c r :=
  Function.update_of_ne (StableHlo.devRef_ne_of_ne h) ..

theorem X12_out (c : Dev nD) : X12 m c main_v43 = (dat4 (tc (X11 m)) c).arrAt 3 cfg4.N :=
  Function.update_self ..
theorem X12_of (c : Dev nD) (r : Ref sig .tc) (h : r ≠ main_v43) : X12 m c r = X11 m c r :=
  Function.update_of_ne (StableHlo.devRef_ne_of_ne h) ..

theorem X14_out (c : Dev nD) : X14 m c main_v47 = (dat5 (tc (U13 m)) c).arrAt 3 cfg5.N :=
  Function.update_self ..
theorem X14_of (c : Dev nD) (r : Ref sig .tc) (h : r ≠ main_v47) : X14 m c r = U13 m c r :=
  Function.update_of_ne (StableHlo.devRef_ne_of_ne h) ..

end Cert.Kernel.Hand

end
-- ==== Proof.K.Regs.lean ====
import proofs.«425587_j43765716746405_1_alg».proof.Proof.Gen.Kernel.Regions
import proofs.«425587_j43765716746405_1_alg».proof.Proof.K.Stages
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option backward.isDefEq.respectTransparency.types false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ
local notation "ℂ" => Pipeline.pin (pcfgs (F := F)) Gen.adm

variable (m : (ℓ : Loc nD τ sig) → Buf (Elt F) ℓ)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- Every pipeline's proof data, at the contents its region is entered with. -/
def pdats : (p : Fin 6) → (c : Dev nD) → Dat τ (Elt F) Unit ℕ (UR sig nD τ) ℕ (ℂ p) c
  | ⟨0, _⟩ => fun c => dat0 (tc (U5 m)) c
  | ⟨1, _⟩ => fun c => dat1 (tc (X6 m)) c
  | ⟨2, _⟩ => fun c => dat2 (tc (U8 m)) c
  | ⟨3, _⟩ => fun c => dat3 (tc (U10 m)) c
  | ⟨4, _⟩ => fun c => dat4 (tc (X11 m)) c
  | ⟨5, _⟩ => fun c => dat5 (tc (U13 m)) c

/-- Region `p` as a segment of the run, entered at the contents `Vi` and left at `Vo`, which differ only in the array of the
    region's output window `wo`: every input array is as at entry, the output array is what the region's points leave. -/
def mkReg (p : Fin 6) (lf : Pipeline.LaunchFacts (nD := nD) (τ := τ) cfgs p) (Vi Vo : Dev nD → Valuation τ sig (Elt F))
    (hb : ∀ c, BodyObligation (pdats m p c) (defs₀ (F := F)) 𝒱₀ () Set.univ)
    (hq : ∀ c w, (pdats m p c).q w = fullShare) (ho : ∀ c t, (pdats m p c).owed t = 0)
    (hr : ∀ c t, (pdats m p c).recorded t = Set.univ)
    (hA : ∀ c w, (pdats m p c).A w = tc Vi c (Pipeline.arrRef (ℂ p).spec w))
    (wo : Fin (ℂ p).W) (hio : ∀ w, w ≠ wo → ((ℂ p).win w).isOut = false)
    (hout' : ∀ c, tc Vo c (Pipeline.arrRef (ℂ p).spec wo) = (pdats m p c).arrAt wo (ℂ p).N)
    (hof : ∀ c r, r ≠ Pipeline.arrRef (ℂ p).spec wo → tc Vo c r = tc Vi c r)
    (hin : ∀ c, (Pipeline.ΦA (ℂ p).spec c : sProp 𝕄) ⊢ (pdats m p c).Φ 0)
    (hout : ∀ c, (pdats m p c).Φ (Fin.last _) ⊢ (Pipeline.ΦA (ℂ p).spec c : sProp 𝕄)) :
    RegionSeg (pcfgs (F := F)) Gen.adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (ℂ p).spec c (tc Vi c)
  hentry c := by
    rw [Pipeline.ownSems0_none]
    have hsplit := Pipeline.arrays_of_unscopedBufs (p := p) (pcfgs (F := F)) Gen.adm (pdats m) lf.win lf.arr_whole c
      ((pdats m p c).share_full (hq c)) (tc Vi c) (hA c)
    rw [Pipeline.unscopedBufs_held] at hsplit
    unfold Pipeline.Dat.owesAt Pipeline.owesWithin Pipeline.Dat.bound Pipeline.prefHeld
    rw [ho, hr, show (Finset.univ : Finset (Fin 0)) = ∅ from rfl, BI.bigSep_empty]
    iintro ⟨⟨Hub, Hp, %W, HO⟩, -, -⟩
    ihave H := hsplit $$ Hub
    icases H with ⟨Ha, Hrest⟩
    imodintro
    iframe
    isplitr; · iempintro
    iexists W; isplitr; · ipureintro; exact fun _ _ => Or.inl trivial
    iexact HO
  hin c := by
    refine .trans ?_ (hin c)
    unfold Pipeline.ΦA
    iintro ⟨Hp, -, Hr⟩
    iframe
  hout c := by
    rw [Pipeline.ownSems0_none]
    refine (hout c).trans ?_
    unfold Pipeline.ΦA
    iintro ⟨Hr, Hp⟩
    iframe
    iempintro
  hexit c := by
    have hjoin := Pipeline.unscopedBufs_of_arrays (p := p) (pcfgs (F := F)) Gen.adm (Ix := Unit) (Name := ℕ) (U := UR sig nD τ) (Lvl := ℕ)
      lf.win lf.arr_whole c (pdats m) ((pdats m p c).share_full (hq c))
      (tc Vi c) (tc Vo c) ((pdats m p c).arrAt · (ℂ p).N)
      (fun w => by
        by_cases h : w = wo
        · rw [h, hout']
        · exact (((pdats m p c).arrAt_in w (hio w h) _).trans (hA c w)).trans (hof c _ fun e => h (lf.win.arr_inj e)).symm)
      (fun b hb => hof c b fun e => hb (Finset.mem_image.mpr ⟨wo, Finset.mem_univ _, e.symm⟩))
    rw [Pipeline.unscopedBufs_held] at hjoin
    unfold Pipeline.Dat.owesAt Pipeline.owesWithin
    rw [ho]
    iintro ⟨Ha, ⟨%W, -, HO⟩, HY, Hrest⟩
    imodintro
    isplitl [Ha Hrest]
    · iapply hjoin; iframe
    isplitl [HY]; · iexact HY
    iexists W; iexact HO

/-! The six regions. -/

def reg0 := mkReg m 0 launch0 (U5 m) (X6 m) (body_obligation0 (tc (U5 m))) (fun _ _ => rfl) (fun _ _ => rfl) (fun _ _ => rfl)
  (fun _ _ => rfl) 2 (by decide : ∀ w : Fin cfg0.W, w ≠ 2 → (cfg0.win w).isOut = false) (X6_out m) (X6_of m) (fun _ => .rfl) (fun _ => .rfl)
def reg1 := mkReg m 1 launch1 (X6 m) (X7 m) (body_obligation1 (tc (X6 m))) (fun _ _ => rfl) (fun _ _ => rfl) (fun _ _ => rfl)
  (fun _ _ => rfl) 3 (by decide : ∀ w : Fin cfg1.W, w ≠ 3 → (cfg1.win w).isOut = false) (X7_out m) (X7_of m) (fun _ => .rfl) (fun _ => .rfl)
def reg2 := mkReg m 2 launch2 (U8 m) (X9 m) (body_obligation2 (tc (U8 m))) (fun _ _ => rfl) (fun _ _ => rfl) (fun _ _ => rfl)
  (fun _ _ => rfl) 3 (by decide : ∀ w : Fin cfg2.W, w ≠ 3 → (cfg2.win w).isOut = false) (X9_out m) (X9_of m) (inv2_in (tc (U8 m))) (inv2_out (tc (U8 m)))
def reg3 := mkReg m 3 launch3 (U10 m) (X11 m) (body_obligation3 (tc (U10 m))) (fun _ _ => rfl) (fun _ _ => rfl) (fun _ _ => rfl)
  (fun _ _ => rfl) 2 (by decide : ∀ w : Fin cfg3.W, w ≠ 2 → (cfg3.win w).isOut = false) (X11_out m) (X11_of m) (fun _ => .rfl) (fun _ => .rfl)
def reg4 := mkReg m 4 launch4 (X11 m) (X12 m) (body_obligation4 (tc (X11 m))) (fun _ _ => rfl) (fun _ _ => rfl) (fun _ _ => rfl)
  (fun _ _ => rfl) 3 (by decide : ∀ w : Fin cfg4.W, w ≠ 3 → (cfg4.win w).isOut = false) (X12_out m) (X12_of m) (fun _ => .rfl) (fun _ => .rfl)
def reg5 := mkReg m 5 launch5 (U13 m) (X14 m) (body_obligation5 (tc (U13 m))) (fun _ _ => rfl) (fun _ _ => rfl) (fun _ _ => rfl)
  (fun _ _ => rfl) 3 (by decide : ∀ w : Fin cfg5.W, w ≠ 3 → (cfg5.win w).isOut = false) (X14_out m) (X14_of m) (inv5_in (tc (U13 m))) (inv5_out (tc (U13 m)))

end Cert.Kernel.Hand

end
-- ==== Proof.K.Frame.lean ====
import proofs.«425587_j43765716746405_1_alg».proof.Proof.K.Regs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option backward.isDefEq.respectTransparency.types false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ
local notation "ℂ" => Pipeline.pin (pcfgs (F := F)) Gen.adm

variable (m : (ℓ : Loc nD τ sig) → Buf (Elt F) ℓ)

abbrev E : Fin 7 → Dev nD → sProp 𝕄 := fun _ c => R c

/-- The frame: every weakly fair execution of the program from memory `m` terminates without a fault and its arguments
    end unchanged, by the generated conditional frame at the six region records. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    E
    (by
      have h : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (iprop(emp) : sProp 𝕄)))
          ⊢ (bigSep Finset.univ (E (F := F) 0) : sProp 𝕄) :=
        bigSep_mono fun c _ =>
          (show (iprop(unscopedSems0 c ∗ owes (c : Thread nD τ) ((0 : Dev nD → CellTallies nD τ sig Unit) c) ∅
              ∗ Pipeline.launchCred (0 : Dev nD → CellTallies nD τ sig Unit) c ∗ prngReg c (ρ c) ∗ (iprop(emp) : sProp 𝕄)) : sProp 𝕄)
              ⊢ (iprop((∃ r, prngReg c r) ∗ ∃ W, owes (c : Thread nD τ) (0 : CellTallies nD τ sig Unit) W) : sProp 𝕄) from by
            iintro ⟨-, HO, -, Hp, -⟩
            isplitl [Hp]; · iexists _; iexact Hp
            iexists ∅; iexact HO)
      iintro ⟨H, -⟩
      imodintro
      iapply h; iexact H)
    (fun c => by iintro ⟨-, HO⟩; iexact HO)
    (reg0 m) (fun c => .rfl) (fun c => by rw [V6_eq]; exact .rfl)
    (reg1 m) (fun c => by rw [V6_eq]; exact .rfl) (fun c => by rw [V7_eq]; exact .rfl)
    (reg2 m) (fun c => by rw [V8_eq]; exact .rfl) (fun c => by rw [V9_eq]; exact .rfl)
    (reg3 m) (fun c => by rw [V10_eq]; exact .rfl) (fun c => by rw [V11_eq]; exact .rfl)
    (reg4 m) (fun c => by rw [V11_eq]; exact .rfl) (fun c => by rw [V12_eq]; exact .rfl)
    (reg5 m) (fun c => by rw [V13_eq]; exact .rfl) (fun c => by rw [V14_eq]; exact .rfl)

end Cert.Kernel.Hand

end
-- ==== Proof.KI.T0.lean ====
import proofs.«425587_j43765716746405_1_alg».proof.Proof.Gen.KernelIdeal.Launch
import proofs.«425587_j43765716746405_1_alg».proof.Proof.Gen.KernelIdeal.Skeleton
import proofs.«425587_j43765716746405_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r0_0 : Rect S2048x128 := Rect.unit (s := S2048x128) ![0, 0] S2048x128.size inb_S2048x128_S2048x128_0_0
abbrev r0_1 : Rect S128x128 := Rect.unit (s := S128x128) ![0, 0] S128x128.size inb_S128x128_S128x128_0_0

/-- What the dense transform's body leaves in its output block: its one store, of the product of the two loaded blocks. -/
def out0_2 (x0 : Vec F S2048x128 .f32) (x1 : Vec F S128x128 .f32) : Vec F S2048x128 .bf16 :=
  View.canon [⟨r0_0, k0_pay1 (View.ld x0 r0_0) (View.ld x1 r0_1)⟩]

theorem cover0_2 (p0 : Vec F S2048x128 .bf16) (y : S2048x128.Idx) :
    ∃ pc ∈ ([⟨r0_0, p0⟩] : List (View.Piece (Elt F) S2048x128 .bf16)), y ∈ pc.1.set :=
  View.cover_of_tiled [⟨r0_0, p0⟩] S2048x128.size (by rfl) y

/-- The body on whole memrefs, the inputs' at `x0`, `x1` and the output's at anything, runs to the continuation with the
    inputs' as they were and the output's at `out0_2 x0 x1`: its one store covers the output block. -/
theorem sound_kernel0 (c : Dev nD) (E : Set ℕ) (i : grid0.Coords) (arg1 : Memref sig .tc .vmem S2048x128 .f32) (harg1 : arg1.IsWhole)
    (arg2 : Memref sig .tc .vmem S128x128 .f32) (harg2 : arg2.IsWhole) (arg3 : Memref sig .tc .vmem S2048x128 .bf16) (harg3 : arg3.IsWhole)
    (x0 : Vec F S2048x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Regions 0 and 3 run one kernel: the rewrite that reads either region's body as this one's. -/
theorem same_kernel0 : cc0__matmul_kernel (F := F) = cc0__matmul_kernel := rfl
theorem same_kernel3 : cc3__matmul_kernel (F := F) = cc0__matmul_kernel := rfl

end Cert.KernelIdeal.Hand

end
-- ==== Proof.KI.R0.lean ====
import proofs.«425587_j43765716746405_1_alg».proof.Proof.KI.T0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: after the body at point `t` the inputs are their blocks and the output block is the product of the two. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl
theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = out0_2 (iblk0 V c 0 t) (iblk0 V c 1 t) := by
  dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

/-- What the body is given at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The inputs hold their blocks, so the body's triple applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [same_kernel0]
  simp only [before0_0, before0_1]
  rw [show (dat0 V c).Φ t.succ = (dat0 V c).Φ t.castSucc from rfl,
    show (dat0 V c).owesAt () t.succ = (dat0 V c).owesAt () t.castSucc from rfl, after0_0, after0_1, after0_2]
  refine .trans ?_ (sound_kernel0 c Set.univ _ _ _ _ _ _ _ (iblk0 V c 0 t) (iblk0 V c 1 t) _)
  iintro ⟨HΦ, Ho, ⟨%d0, H0⟩, ⟨%d1, H1⟩, ⟨%d2, H2⟩⟩
  iframe H0 H1
  isplitl [H2]; · iexists _; iexact H2
  iintro ⟨H0, H1, H2⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.T1.lean ====
import proofs.«425587_j43765716746405_1_alg».proof.Proof.Gen.KernelIdeal.Launch
import proofs.«425587_j43765716746405_1_alg».proof.Proof.Gen.KernelIdeal.Skeleton
import proofs.«425587_j43765716746405_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r1_0 : Rect S1x256 := Rect.unit (s := S1x256) ![0, 0] S1x256.size inb_S1x256_S1x256_0_0
abbrev r1_1 : Rect S1x256 := Rect.unit (s := S1x256) ![0, 0] S1x256.size inb_S1x256_S1x256_0_0
abbrev r1_2 : Rect S40960x128 := Rect.unit (s := S40960x128) ![0, 0] S40960x128.size inb_S40960x128_S40960x128_0_0
abbrev r1_3 : Rect S256x128 := Rect.unit (s := S256x128) ![0, 0] S256x128.size inb_S256x128_S256x128_0_0

/-- What the gather's body leaves in its output block, from the three input blocks. -/
def out1_3 (x0 : Vec F S1x256 .i32) (x1 : Vec F S1x256 .f32) (x2 : Vec F S40960x128 .bf16) : Vec F S256x128 .bf16 :=
  View.canon [⟨r1_3, k1_pay1 (View.ld x0 r1_0) (View.ld x1 r1_1) (View.ld x2 r1_2)⟩]

theorem cover1_3 (p : Vec F S256x128 .bf16) (y : S256x128.Idx) :
    ∃ pc ∈ ([⟨r1_3, p⟩] : List (View.Piece (Elt F) S256x128 .bf16)), y ∈ pc.1.set :=
  View.cover_of_tiled [⟨r1_3, p⟩] S256x128.size (by rfl) y

/-- The body on whole memrefs, the inputs' at `x0`, `x1`, `x2` and the output's at anything, runs to the continuation with
    the inputs' as they were and the output's at `out1_3 x0 x1 x2`: its one store covers the output block. -/
theorem triple1 (c : Dev nD) (E : Set ℕ) (i : grid1.Coords)
    (a0 : Memref sig .tc .vmem S1x256 .i32) (h0 : a0.IsWhole) (a1 : Memref sig .tc .vmem S1x256 .f32) (h1 : a1.IsWhole)
    (a2 : Memref sig .tc .vmem S40960x128 .bf16) (h2 : a2.IsWhole) (a3 : Memref sig .tc .vmem S256x128 .bf16) (h3 : a3.IsWhole)
    (x0 : Vec F S1x256 .i32) (x1 : Vec F S1x256 .f32) (x2 : Vec F S40960x128 .bf16) (K : PUnit → sProp 𝕄) :
    iprop(owns (c : Thread nD τ) a0 fullShare x0 ∗ owns (c : Thread nD τ) a1 fullShare x1
        ∗ owns (c : Thread nD τ) a2 fullShare x2 ∗ (∃ d, owns (c : Thread nD τ) a3 fullShare d)
        ∗ (iprop(owns (c : Thread nD τ) a0 fullShare x0 ∗ owns (c : Thread nD τ) a1 fullShare x1
            ∗ owns (c : Thread nD τ) a2 fullShare x2 ∗ owns (c : Thread nD τ) a3 fullShare (out1_3 x0 x1 x2)) -∗ K ⟨⟩))
      ⊢ wp frame (wpE (defs₀ (F := F)) Variants.none c none) E (cc1__gather_kernel i a0 h0 a1 h1 a2 h2 a3 h3) K := by
  rw [cc1__gather_kernel_eq_skeleton]
  unfold cc1__gather_kernel_skel owns
  iintro ⟨⟨%f0, %e0, H0⟩, ⟨%f1, %e1, H1⟩, ⟨%f2, %e2, H2⟩, ⟨%d3, %f3, -, H3⟩, Hk⟩
  subst e0 e1 e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- Regions 1 and 4 run one kernel: the rewrite that reads either region's body as this one's. -/
theorem same_kernel1 : cc1__gather_kernel (F := F) = cc1__gather_kernel := rfl
theorem same_kernel4 : cc4__gather_kernel (F := F) = cc1__gather_kernel := rfl

end Cert.KernelIdeal.Hand

end
-- ==== Proof.KI.R1.lean ====
import proofs.«425587_j43765716746405_1_alg».proof.Proof.KI.T1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data: after the body at point `t` the inputs are their blocks and the output block is `out1_3` of the three. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl
theorem after1_0 (c : Dev nD) (t : Fin cfg1.N) : (dat1 V c).after 0 t = iblk1 V c 0 t := rfl
theorem after1_1 (c : Dev nD) (t : Fin cfg1.N) : (dat1 V c).after 1 t = iblk1 V c 1 t := rfl
theorem after1_2 (c : Dev nD) (t : Fin cfg1.N) : (dat1 V c).after 2 t = iblk1 V c 2 t := rfl
theorem after1_3 (c : Dev nD) (t : Fin cfg1.N) :
    (dat1 V c).after 3 t = out1_3 (iblk1 V c 0 t) (iblk1 V c 1 t) (iblk1 V c 2 t) := rfl

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

/-- The inputs hold their blocks, so the body's triple applies; the rest passes through. -/
theorem step1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t)) := by
  unfold bodyAt1
  rw [same_kernel1]
  simp only [before1_0, before1_1, before1_2]
  rw [after1_0, after1_1, after1_2, after1_3, show (dat1 V c).Φ t.succ = (dat1 V c).Φ t.castSucc from rfl,
    show (dat1 V c).owesAt () t.succ = (dat1 V c).owesAt () t.castSucc from rfl]
  refine .trans ?_ (triple1 c Set.univ _ _ _ _ _ _ _ _ _ (iblk1 V c 0 t) (iblk1 V c 1 t) (iblk1 V c 2 t) _)
  iintro ⟨HΦ, Ho, ⟨%d0, H0⟩, ⟨%d1, H1⟩, ⟨%d2, H2⟩, ⟨%d3, H3⟩⟩
  iframe H0 H1 H2
  isplitl [H3]; · iexists _; iexact H3
  iintro ⟨H0, H1, H2, H3⟩
  iframe

theorem body_obligation1 (c : Dev nD) : BodyObligation (dat1 (F := F) V c) (defs₀ (F := F)) Variants.none () Set.univ := fun t => by
  rw [bigSep_W1, bigSep_W1]
  exact step1 V c t

end Cert.KernelIdeal.Hand

end
-- ==== Proof.KI.T2.lean ====
import proofs.«425587_j43765716746405_1_alg».proof.Proof.Gen.KernelIdeal.Launch
import proofs.«425587_j43765716746405_1_alg».proof.Proof.Gen.KernelIdeal.Skeleton
import proofs.«425587_j43765716746405_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first test, `kc = 0`, as it computes it from the coordinates. -/
abbrev cond2_0 (i : grid2.Coords) : Prop :=
  (Scalar.cmpi .ne (Scalar.extui (Scalar.cmpi .eq (BitVec.ofNat 32 (i 1).val) 0#32)) 0#32) = 1#1

theorem hcond2_0 : ∀ t : Fin cfg2.N, cond2_0 (grid2.coords t) ↔ t.val % 125 = 0 :=
  (by decide +kernel : ∀ t : Fin grid2.N, cond2_0 (grid2.coords t) ↔ t.val % 125 = 0)

theorem hcond2_1 : ∀ t : Fin cfg2.N, k2_cond2 (grid2.coords t) = 1#1 ↔ t.val % 125 = 124 :=
  (by decide +kernel : ∀ t : Fin grid2.N, k2_cond2 (grid2.coords t) = 1#1 ↔ t.val % 125 = 124)

/-! Every load and store of this body goes through the rectangle of a whole buffer, which embeds each index as itself. -/

theorem zeros2_2 : (![0, 0] : Fin 2 → ℕ) = fun _ => 0 := by funext a; fin_cases a <;> rfl

theorem emb_whole2 {S : Shape} {off : Fin S.rank → ℕ} (h : off = fun _ => 0) (inb : ∀ a, off a + S.size a ≤ S.size a)
    (x : S.Idx) : (Rect.unit off S.size inb).emb x = x := by
  subst h
  funext a
  apply Fin.ext
  show 0 + 1 * (x a).val = (x a).val
  rw [Nat.one_mul, Nat.zero_add]

theorem ld_whole2 {Val : EltTy → Type} {S : Shape} {e : EltTy} {off : Fin S.rank → ℕ} (h : off = fun _ => 0)
    (inb : ∀ a, off a + S.size a ≤ S.size a) (X : S.Idx → Val e) : View.ld X (Rect.unit off S.size inb) = X :=
  funext fun x => congrArg X (emb_whole2 h inb x)

theorem read_writes_cons_whole2 {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  funext y
  have e := View.read_writes_cons_emb v f (Rect.unit off S.size inb) w L y
  rwa [emb_whole2 h inb y] at e

/-- `kc = 0`: the scratch, whatever it held, is zeroed and then holds the first product. -/
theorem runFirst2 (c : Dev nD) (i : grid2.Coords)
    (arg2 : Memref sig .tc .vmem S1x5120 .i32) (harg2 : arg2.IsWhole)
    (arg3 : Memref sig .tc .vmem S5120x128 .bf16) (harg3 : arg3.IsWhole)
    (arg4 : Memref sig .tc .vmem S1x128 .f32) (harg4 : arg4.IsWhole)
    (arg5 : Memref sig .tc .vmem S2048x128 .f32) (harg5 : arg5.IsWhole)
    (arg6 : Memref sig .tc .vmem S2048x128 .f32) (harg6 : arg6.IsWhole)
    (hc0 : cond2_0 i) (hc1 : ¬ k2_cond2 i = 1#1)
    (x0 : Vec F S1x5120 .i32) (x1 : Vec F S5120x128 .bf16)
    (E : Set ℕ) (K : PUnit → sProp 𝕄) :
    iprop(owns (c : Thread nD τ) arg2 fullShare x0 ∗ owns (c : Thread nD τ) arg3 fullShare x1
        ∗ (∃ d, owns (c : Thread nD τ) arg6 fullShare d)
        ∗ (iprop(owns (c : Thread nD τ) arg2 fullShare x0 ∗ owns (c : Thread nD τ) arg3 fullShare x1
            ∗ owns (c : Thread nD τ) arg6 fullShare (k2_pay2 i x0 x1 (k2_pay1 (F := F)))) -∗ K ⟨⟩))
      ⊢ wp frame (wpE (defs₀ (F := F)) Variants.none c none) E
          (cc2__scatter_kernel i arg2 harg2 arg3 harg3 arg4 harg4 arg5 harg5 arg6 harg6) K := by
  simp only [cc2__scatter_kernel_eq_skeleton]; unfold cc2__scatter_kernel_skel
  unfold owns
  iintro ⟨⟨%f0, %hf0, H0⟩, ⟨%f1, %hf1, H1⟩, ⟨%d4, %f4, -, H4⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H4
  ipureintro
  rw [read_writes_cons_whole2 _ _ zeros2_2]
  sl_unfold_run_names
  simp only [View.readAt_eq_ld, harg2.read_unread, harg3.read_unread, ld_whole2 (S := S1x5120) zeros2_2,
    ld_whole2 (S := S5120x128) zeros2_2, View.readCov_cons_toLoadRect]

/-- `0 < kc < 124`: the scratch at `a` gains one product. -/
theorem runMid2 (c : Dev nD) (i : grid2.Coords)
    (arg2 : Memref sig .tc .vmem S1x5120 .i32) (harg2 : arg2.IsWhole)
    (arg3 : Memref sig .tc .vmem S5120x128 .bf16) (harg3 : arg3.IsWhole)
    (arg4 : Memref sig .tc .vmem S1x128 .f32) (harg4 : arg4.IsWhole)
    (arg5 : Memref sig .tc .vmem S2048x128 .f32) (harg5 : arg5.IsWhole)
    (arg6 : Memref sig .tc .vmem S2048x128 .f32) (harg6 : arg6.IsWhole)
    (hc0 : ¬ cond2_0 i) (hc1 : ¬ k2_cond2 i = 1#1)
    (x0 : Vec F S1x5120 .i32) (x1 : Vec F S5120x128 .bf16) (a : Vec F S2048x128 .f32)
    (E : Set ℕ) (K : PUnit → sProp 𝕄) :
    iprop(owns (c : Thread nD τ) arg2 fullShare x0 ∗ owns (c : Thread nD τ) arg3 fullShare x1
        ∗ owns (c : Thread nD τ) arg6 fullShare a
        ∗ (iprop(owns (c : Thread nD τ) arg2 fullShare x0 ∗ owns (c : Thread nD τ) arg3 fullShare x1
            ∗ owns (c : Thread nD τ) arg6 fullShare (k2_pay2 i x0 x1 a)) -∗ K ⟨⟩))
      ⊢ wp frame (wpE (defs₀ (F := F)) Variants.none c none) E
          (cc2__scatter_kernel i arg2 harg2 arg3 harg3 arg4 harg4 arg5 harg5 arg6 harg6) K := by
  simp only [cc2__scatter_kernel_eq_skeleton]; unfold cc2__scatter_kernel_skel
  unfold owns
  iintro ⟨⟨%f0, %hf0, H0⟩, ⟨%f1, %hf1, H1⟩, ⟨%f4, %hf4, H4⟩, Hk⟩
  obtain rfl := harg2.eq_unread hf0; obtain rfl := harg3.eq_unread hf1; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H4
  ipureintro
  rw [read_writes_cons_whole2 _ _ zeros2_2]
  simp only [View.readAt_eq_ld, harg2.read_unread, harg3.read_unread, harg6.read_unread,
    ld_whole2 (S := S1x5120) zeros2_2, ld_whole2 (S := S5120x128) zeros2_2, ld_whole2 (S := S2048x128) zeros2_2]

/-- `kc = 124`: the scratch at `a` gains the last product, and the output buffer ends at that sum plus the bias row. -/
theorem runLast2 (c : Dev nD) (i : grid2.Coords)
    (arg2 : Memref sig .tc .vmem S1x5120 .i32) (harg2 : arg2.IsWhole)
    (arg3 : Memref sig .tc .vmem S5120x128 .bf16) (harg3 : arg3.IsWhole)
    (arg4 : Memref sig .tc .vmem S1x128 .f32) (harg4 : arg4.IsWhole)
    (arg5 : Memref sig .tc .vmem S2048x128 .f32) (harg5 : arg5.IsWhole)
    (arg6 : Memref sig .tc .vmem S2048x128 .f32) (harg6 : arg6.IsWhole)
    (hc0 : ¬ cond2_0 i) (hc1 : k2_cond2 i = 1#1)
    (x0 : Vec F S1x5120 .i32) (x1 : Vec F S5120x128 .bf16) (x2 : Vec F S1x128 .f32) (a : Vec F S2048x128 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare a
        ∗ (iprop(owns (c : Thread nD τ) arg2 fullShare x0 ∗ owns (c : Thread nD τ) arg3 fullShare x1
            ∗ owns (c : Thread nD τ) arg4 fullShare x2
            ∗ owns (c : Thread nD τ) arg5 fullShare (k2_pay3 (k2_pay2 i x0 x1 a) x2)
            ∗ owns (c : Thread nD τ) arg6 fullShare (k2_pay2 i x0 x1 a)) -∗ K ⟨⟩))
      ⊢ wp frame (wpE (defs₀ (F := F)) Variants.none c none) E
          (cc2__scatter_kernel i arg2 harg2 arg3 harg3 arg4 harg4 arg5 harg5 arg6 harg6) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2
  obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [read_writes_cons_whole2 _ _ zeros2_2]
    sl_unfold_run_names
    simp only [View.readAt_eq_ld, harg2.read_unread, harg3.read_unread, harg4.read_unread, harg6.read_unread,
      ld_whole2 (S := S1x5120) zeros2_2, ld_whole2 (S := S5120x128) zeros2_2, ld_whole2 (S := S2048x128) zeros2_2,
      ld_whole2 (S := S1x128) zeros2_2, View.readCov_cons_toLoadRect]
  iexists _; isplitr
  swap; · iexact H4
  ipureintro
  sl_unfold_run_names
  rw [read_writes_cons_whole2 _ _ zeros2_2]
  simp only [View.readAt_eq_ld, harg2.read_unread, harg3.read_unread, harg6.read_unread,
    ld_whole2 (S := S1x5120) zeros2_2, ld_whole2 (S := S5120x128) zeros2_2, ld_whole2 (S := S2048x128) zeros2_2]

/-- Regions 2 and 5 run one kernel: the rewrite that reads either region's body as this one's. -/
theorem same_kernel2 : cc2__scatter_kernel (F := F) = cc2__scatter_kernel := rfl
theorem same_kernel5 : cc5__scatter_kernel (F := F) = cc2__scatter_kernel := rfl

end Cert.KernelIdeal.Hand

end
-- ==== Proof.KI.R2.lean ====
import proofs.«425587_j43765716746405_1_alg».proof.Proof.KI.T2

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- One point's update of the scratch: the product of the point's index block and message block, added to `a`. -/
abbrev step2 (c : Dev nD) (t : Fin cfg2.N) (a : Vec F S2048x128 .f32) : Vec F S2048x128 .f32 :=
  k2_pay2 (grid2.coords t) (iblk2 V c 0 t) (iblk2 V c 1 t) a

/-- The scratch after the body at point `n`: the running sum over `kc` of the products of row block `nb`, restarted from
    zero wherever `kc = 0`. -/
def accAt2 (c : Dev nD) : (n : ℕ) → n < cfg2.N → Vec F S2048x128 .f32
  | 0, hn => step2 V c ⟨0, hn⟩ (k2_pay1 (F := F))
  | n + 1, hn => step2 V c ⟨n + 1, hn⟩ (if (n + 1) % 125 = 0 then k2_pay1 (F := F) else accAt2 c n (Nat.lt_of_succ_lt hn))

theorem accAt2_first (c : Dev nD) (t : Fin cfg2.N) (h : t.val % 125 = 0) :
    accAt2 V c t.val t.isLt = k2_pay2 (grid2.coords t) (iblk2 V c 0 t) (iblk2 V c 1 t) (k2_pay1 (F := F)) := by
  obtain ⟨n, hn⟩ := t
  cases n with
  | zero => rfl
  | succ n => show step2 V c ⟨n + 1, hn⟩ (if (n + 1) % 125 = 0 then _ else _) = _; rw [if_pos h]

/-- What the point before `t` left in the scratch. -/
abbrev prev2 (c : Dev nD) (t : Fin cfg2.N) : Vec F S2048x128 .f32 :=
  accAt2 V c (t.val - 1) (Nat.lt_of_le_of_lt (Nat.sub_le _ _) t.isLt)

theorem accAt2_next (c : Dev nD) (t : Fin cfg2.N) (h : t.val % 125 ≠ 0) :
    accAt2 V c t.val t.isLt = k2_pay2 (grid2.coords t) (iblk2 V c 0 t) (iblk2 V c 1 t) (prev2 V c t) := by
  obtain ⟨n, hn⟩ := t
  cases n with
  | zero => exact absurd (Nat.zero_mod 125) h
  | succ n => show step2 V c ⟨n + 1, hn⟩ (if (n + 1) % 125 = 0 then _ else _) = _; rw [if_neg h]; rfl

abbrev scr2 : Memref sig .tc .vmem S2048x128 .f32 := Memref.whole cc2_scratch0

/-- The scratch before point `n`: anything before the first point, then what the point before left. -/
def scrAt2 (c : Dev nD) : (n : ℕ) → n < cfg2.N + 1 → sProp 𝕄
  | 0, _ => iprop(∃ X, owns (c : Thread nD τ) scr2 fullShare X)
  | n + 1, hn => owns (c : Thread nD τ) scr2 fullShare (accAt2 V c n (Nat.lt_of_succ_lt_succ hn))

theorem scrAt2_some (c : Dev nD) (n : ℕ) (hn : n < cfg2.N + 1) :
    scrAt2 V c n hn ⊢ iprop(∃ X, owns (c : Thread nD τ) scr2 fullShare X) := by
  cases n with
  | zero => exact .rfl
  | succ n => unfold scrAt2; iintro H; iexists _; iexact H

theorem scrAt2_cast (c : Dev nD) (t : Fin cfg2.N) (h0 : t.val ≠ 0) :
    scrAt2 V c t.castSucc.val t.castSucc.isLt = owns (c : Thread nD τ) scr2 fullShare (prev2 V c t) := by
  obtain ⟨n, hn⟩ := t
  cases n with
  | zero => exact absurd rfl h0
  | succ n => rfl

/-- The proof data: after the body at point `t` the inputs are their blocks and the output block is the scratch's sum plus
    the bias row; between points the scratch holds its running sum. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (accAt2 V c t.val t.isLt) (iblk2 V c 2 t)
  Φ t := iprop(scrAt2 V c t.val t.isLt
    ∗ Pipeline.scopedRestBut (Ix := Unit) (Name := ℕ) (U := UR sig nD τ) (Lvl := ℕ) (Val := Elt F) spec2 c [cc2_scratch0]
    ∗ ∃ r, prngReg c r)
  q _ := fullShare
  owed _ := 0

theorem A_eq2 (c : Dev nD) (w : Fin cfg2.W) : (dat2 V c).A w = V c (Pipeline.arrRef spec2 w) := rfl
theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = iblk2 V c 2 t := rfl
theorem after2_3 (c : Dev nD) (t : Fin cfg2.N) :
    (dat2 V c).after 3 t = k2_pay3 (accAt2 V c t.val t.isLt) (iblk2 V c 2 t) := rfl

theorem inv2_eq (c : Dev nD) (t : Fin (cfg2.N + 1)) : (dat2 V c).Φ t = iprop(scrAt2 V c t.val t.isLt
    ∗ Pipeline.scopedRestBut (Ix := Unit) (Name := ℕ) (U := UR sig nD τ) (Lvl := ℕ) (Val := Elt F) spec2 c [cc2_scratch0]
    ∗ ∃ r, prngReg c r) := rfl

/-- On entry the scratch holds anything, -/
theorem inv2_in (c : Dev nD) : (Pipeline.ΦA spec2 c : sProp 𝕄) ⊢ (dat2 V c).Φ 0 := by
  rw [inv2_eq]; unfold Pipeline.ΦA; rw [scopedRest2_split]
  show _ ⊢ iprop(iprop(∃ X, owns (c : Thread nD τ) scr2 fullShare X) ∗ _ ∗ _)
  iintro ⟨⟨⟨%f, Hs⟩, Hr⟩, Hp⟩
  iframe
  iexists f; rw [owns_whole]; iexact Hs

theorem scr2_forget (c : Dev nD) (X : Vec F S2048x128 .f32) :
    (owns (c : Thread nD τ) scr2 fullShare X : sProp 𝕄)
      ⊢ iprop(∃ f : Buf (Elt F) ((c : Thread nD τ).loc cc2_scratch0), ((c : Thread nD τ).loc cc2_scratch0) ↦{fullShare} f) := by
  rw [owns_whole]; iintro H; iexists X; iexact H

/-- and on exit its contents are forgotten. -/
theorem inv2_out (c : Dev nD) : (dat2 V c).Φ (Fin.last cfg2.N) ⊢ (Pipeline.ΦA spec2 c : sProp 𝕄) := by
  rw [inv2_eq]; unfold Pipeline.ΦA; rw [scopedRest2_split]
  iintro ⟨Hs, Hr, Hp⟩
  iframe
  ihave Hs' := (scrAt2_some V c _ _) $$ Hs
  icases Hs' with ⟨%X, Hs'⟩
  iapply (scr2_forget c X) $$ Hs'

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

/-- What the body is given at point `t`. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- Where `kc ≠ 124` the output block is untouched and the scratch gains one product, over zero if `kc = 0` and over the sum of
    the point before otherwise. -/
theorem sound_idle2 (c : Dev nD) (t : Fin cfg2.N) (h : ¬ t.val % 125 = 124) :
    bodyPre2 V c t ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)
        ∗ (∃ d, owns (c : Thread nD τ) (st2_3 t) fullShare ((dat2 V c).before 3 t d)))) := by
  unfold bodyPre2 bodyAt2
  rw [same_kernel2]
  simp only [before2_0, before2_1, before2_2]
  rw [show (dat2 V c).owesAt () t.succ = (dat2 V c).owesAt () t.castSucc from rfl, after2_0, after2_1, after2_2,
    inv2_eq, inv2_eq, show scrAt2 V c t.succ.val t.succ.isLt = owns (c : Thread nD τ) scr2 fullShare (accAt2 V c t.val t.isLt) from rfl]
  have hk : ¬ k2_cond2 (grid2.coords t) = 1#1 := fun hk => h ((hcond2_1 t).mp hk)
  by_cases h0 : t.val % 125 = 0
  · rw [accAt2_first V c t h0]
    refine .trans ?_ (runFirst2 c (grid2.coords t) _ _ _ _ _ _ _ _ _ _ ((hcond2_0 t).mpr h0) hk (iblk2 V c 0 t) (iblk2 V c 1 t) Set.univ _)
    iintro ⟨⟨Hs, Hr, Hp⟩, Ho, ⟨%d0, H0⟩, ⟨%d1, H1⟩, ⟨%d2, H2⟩, H3⟩
    ihave Hs' := (scrAt2_some V c _ _) $$ Hs
    iframe H0 H1 Hs'
    iintro ⟨H0, H1, Hs⟩
    iframe
  · have ht0 : t.val ≠ 0 := fun e => h0 (by rw [e])
    rw [accAt2_next V c t h0, scrAt2_cast V c t ht0]
    refine .trans ?_ (runMid2 c (grid2.coords t) _ _ _ _ _ _ _ _ _ _ (fun hc => h0 ((hcond2_0 t).mp hc)) hk (iblk2 V c 0 t) (iblk2 V c 1 t) (prev2 V c t) Set.univ _)
    iintro ⟨⟨Hs, Hr, Hp⟩, Ho, ⟨%d0, H0⟩, ⟨%d1, H1⟩, ⟨%d2, H2⟩, H3⟩
    iframe H0 H1 Hs
    iintro ⟨H0, H1, Hs⟩
    iframe

/-- Where `kc = 124` the scratch gains the row block's last product and the output block ends at that sum plus the bias row. -/
theorem sound_last2 (c : Dev nD) (t : Fin cfg2.N) (h : t.val % 125 = 124) :
    bodyPre2 V c t ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)
        ∗ owns (c : Thread nD τ) (st2_3 t) fullShare ((dat2 V c).after 3 t))) := by
  unfold bodyPre2 bodyAt2
  rw [same_kernel2]
  simp only [before2_0, before2_1, before2_2]
  have h0 : ¬ t.val % 125 = 0 := by omega
  have ht0 : t.val ≠ 0 := fun e => h0 (by rw [e])
  rw [show (dat2 V c).owesAt () t.succ = (dat2 V c).owesAt () t.castSucc from rfl, after2_0, after2_1, after2_2, after2_3,
    inv2_eq, inv2_eq, show scrAt2 V c t.succ.val t.succ.isLt = owns (c : Thread nD τ) scr2 fullShare (accAt2 V c t.val t.isLt) from rfl,
    accAt2_next V c t h0, scrAt2_cast V c t ht0]
  refine .trans ?_ (runLast2 c (grid2.coords t) _ _ _ _ _ _ _ _ _ _ (fun hc => h0 ((hcond2_0 t).mp hc)) ((hcond2_1 t).mpr h)
    (iblk2 V c 0 t) (iblk2 V c 1 t) (iblk2 V c 2 t) (prev2 V c t) Set.univ _)
  iintro ⟨⟨Hs, Hr, Hp⟩, Ho, ⟨%d0, H0⟩, ⟨%d1, H1⟩, ⟨%d2, H2⟩, ⟨%d3, H3⟩⟩
  iframe H0 H1 H2 Hs
  isplitl [H3]; · iexists _; iexact H3
  iintro ⟨H0, H1, H2, H3, Hs⟩
  iframe

/-- The body obligation at every point: the output block is stored exactly where `kc = 124`. -/
theorem body_obligation2 (c : Dev nD) : BodyObligation (dat2 (F := F) V c) (defs₀ (F := F)) Variants.none () Set.univ := fun t => by
  rw [bigSep_W2, bigSep_W2]
  by_cases h : t.val % 125 = 124
  · have hidle : idle2 3 (grid2.coords t) = false := by
      show (!(k2_cond2 (grid2.coords t) == 1#1)) = false
      rw [(hcond2_1 t).mpr h]; rfl
    simp only [hidle]
    exact sound_last2 V c t h
  · have hidle : idle2 3 (grid2.coords t) = true := by
      show (!(k2_cond2 (grid2.coords t) == 1#1)) = true
      rw [Bool.not_eq_true', beq_eq_false_iff_ne]
      exact fun hk => h ((hcond2_1 t).mp hk)
    have hflush : (win2 3).flush t = false := Bool.eq_false_iff.mpr fun hf => h ((flush2_3 t).mp hf)
    simp only [hidle, hflush]
    exact sound_idle2 V c t h

end Cert.KernelIdeal.Hand

end
-- ==== Proof.KI.R3.lean ====
import proofs.«425587_j43765716746405_1_alg».proof.Proof.KI.T0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The proof data: after the body at point `t` the inputs are their blocks and the output block is the product of the two. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out0_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl
theorem after3_0 (c : Dev nD) (t : Fin cfg3.N) : (dat3 V c).after 0 t = iblk3 V c 0 t := rfl
theorem after3_1 (c : Dev nD) (t : Fin cfg3.N) : (dat3 V c).after 1 t = iblk3 V c 1 t := rfl
theorem after3_2 (c : Dev nD) (t : Fin cfg3.N) : (dat3 V c).after 2 t = out0_2 (iblk3 V c 0 t) (iblk3 V c 1 t) := by
  dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

/-- What the body is given at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The inputs hold their blocks, so the body's triple applies; the rest passes through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [same_kernel3]
  simp only [before3_0, before3_1]
  rw [show (dat3 V c).Φ t.succ = (dat3 V c).Φ t.castSucc from rfl,
    show (dat3 V c).owesAt () t.succ = (dat3 V c).owesAt () t.castSucc from rfl, after3_0, after3_1, after3_2]
  refine .trans ?_ (sound_kernel0 c Set.univ _ _ _ _ _ _ _ (iblk3 V c 0 t) (iblk3 V c 1 t) _)
  iintro ⟨HΦ, Ho, ⟨%d0, H0⟩, ⟨%d1, H1⟩, ⟨%d2, H2⟩⟩
  iframe H0 H1
  isplitl [H2]; · iexists _; iexact H2
  iintro ⟨H0, H1, H2⟩
  iframe

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
import proofs.«425587_j43765716746405_1_alg».proof.Proof.KI.T1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The proof data: after the body at point `t` the inputs are their blocks and the output block is `out1_3` of the three. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out1_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl
theorem after4_0 (c : Dev nD) (t : Fin cfg4.N) : (dat4 V c).after 0 t = iblk4 V c 0 t := rfl
theorem after4_1 (c : Dev nD) (t : Fin cfg4.N) : (dat4 V c).after 1 t = iblk4 V c 1 t := rfl
theorem after4_2 (c : Dev nD) (t : Fin cfg4.N) : (dat4 V c).after 2 t = iblk4 V c 2 t := rfl
theorem after4_3 (c : Dev nD) (t : Fin cfg4.N) :
    (dat4 V c).after 3 t = out1_3 (iblk4 V c 0 t) (iblk4 V c 1 t) (iblk4 V c 2 t) := rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

/-- The inputs hold their blocks, so the body's triple applies; the rest passes through. -/
theorem step4 (c : Dev nD) (t : Fin cfg4.N) :
    iprop((dat4 V c).Φ t.castSucc ∗ (dat4 V c).owesAt () t.castSucc
        ∗ (∃ d, owns (c : Thread nD τ) (st4_0 t) fullShare ((dat4 V c).before 0 t d))
        ∗ (∃ d, owns (c : Thread nD τ) (st4_1 t) fullShare ((dat4 V c).before 1 t d))
        ∗ (∃ d, owns (c : Thread nD τ) (st4_2 t) fullShare ((dat4 V c).before 2 t d))
        ∗ (∃ d, owns (c : Thread nD τ) (st4_3 t) fullShare ((dat4 V c).before 3 t d)))
      ⊢ wp frame (wpE (defs₀ (F := F)) Variants.none c none) Set.univ (bodyAt4 t) fun _ =>
          iprop((dat4 V c).Φ t.succ ∗ (dat4 V c).owesAt () t.succ
            ∗ owns (c : Thread nD τ) (st4_0 t) fullShare ((dat4 V c).after 0 t)
            ∗ owns (c : Thread nD τ) (st4_1 t) fullShare ((dat4 V c).after 1 t)
            ∗ owns (c : Thread nD τ) (st4_2 t) fullShare ((dat4 V c).after 2 t)
            ∗ owns (c : Thread nD τ) (st4_3 t) fullShare ((dat4 V c).after 3 t)) := by
  unfold bodyAt4
  rw [same_kernel4]
  simp only [before4_0, before4_1, before4_2]
  rw [after4_0, after4_1, after4_2, after4_3, show (dat4 V c).Φ t.succ = (dat4 V c).Φ t.castSucc from rfl,
    show (dat4 V c).owesAt () t.succ = (dat4 V c).owesAt () t.castSucc from rfl]
  refine .trans ?_ (triple1 c Set.univ _ _ _ _ _ _ _ _ _ (iblk4 V c 0 t) (iblk4 V c 1 t) (iblk4 V c 2 t) _)
  iintro ⟨HΦ, Ho, ⟨%d0, H0⟩, ⟨%d1, H1⟩, ⟨%d2, H2⟩, ⟨%d3, H3⟩⟩
  iframe H0 H1 H2
  isplitl [H3]; · iexists _; iexact H3
  iintro ⟨H0, H1, H2, H3⟩
  iframe

theorem body_obligation4 (c : Dev nD) : BodyObligation (dat4 (F := F) V c) (defs₀ (F := F)) Variants.none () Set.univ := fun t => by
  rw [bigSep_W4, bigSep_W4]
  exact step4 V c t

end Cert.KernelIdeal.Hand

end
-- ==== Proof.KI.R5.lean ====
import proofs.«425587_j43765716746405_1_alg».proof.Proof.KI.T2

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- One point's update of the scratch: the product of the point's index block and message block, added to `a`. -/
abbrev step5 (c : Dev nD) (t : Fin cfg5.N) (a : Vec F S2048x128 .f32) : Vec F S2048x128 .f32 :=
  k2_pay2 (grid5.coords t) (iblk5 V c 0 t) (iblk5 V c 1 t) a

/-- The scratch after the body at point `n`: the running sum over `kc` of the products of row block `nb`, restarted from
    zero wherever `kc = 0`. -/
def accAt5 (c : Dev nD) : (n : ℕ) → n < cfg5.N → Vec F S2048x128 .f32
  | 0, hn => step5 V c ⟨0, hn⟩ (k2_pay1 (F := F))
  | n + 1, hn => step5 V c ⟨n + 1, hn⟩ (if (n + 1) % 125 = 0 then k2_pay1 (F := F) else accAt5 c n (Nat.lt_of_succ_lt hn))

theorem accAt5_first (c : Dev nD) (t : Fin cfg5.N) (h : t.val % 125 = 0) :
    accAt5 V c t.val t.isLt = k2_pay2 (grid5.coords t) (iblk5 V c 0 t) (iblk5 V c 1 t) (k2_pay1 (F := F)) := by
  obtain ⟨n, hn⟩ := t
  cases n with
  | zero => rfl
  | succ n => show step5 V c ⟨n + 1, hn⟩ (if (n + 1) % 125 = 0 then _ else _) = _; rw [if_pos h]

/-- What the point before `t` left in the scratch. -/
abbrev prev5 (c : Dev nD) (t : Fin cfg5.N) : Vec F S2048x128 .f32 :=
  accAt5 V c (t.val - 1) (Nat.lt_of_le_of_lt (Nat.sub_le _ _) t.isLt)

theorem accAt5_next (c : Dev nD) (t : Fin cfg5.N) (h : t.val % 125 ≠ 0) :
    accAt5 V c t.val t.isLt = k2_pay2 (grid5.coords t) (iblk5 V c 0 t) (iblk5 V c 1 t) (prev5 V c t) := by
  obtain ⟨n, hn⟩ := t
  cases n with
  | zero => exact absurd (Nat.zero_mod 125) h
  | succ n => show step5 V c ⟨n + 1, hn⟩ (if (n + 1) % 125 = 0 then _ else _) = _; rw [if_neg h]; rfl

abbrev scr5 : Memref sig .tc .vmem S2048x128 .f32 := Memref.whole cc5_scratch0

/-- The scratch before point `n`: anything before the first point, then what the point before left. -/
def scrAt5 (c : Dev nD) : (n : ℕ) → n < cfg5.N + 1 → sProp 𝕄
  | 0, _ => iprop(∃ X, owns (c : Thread nD τ) scr5 fullShare X)
  | n + 1, hn => owns (c : Thread nD τ) scr5 fullShare (accAt5 V c n (Nat.lt_of_succ_lt_succ hn))

theorem scrAt5_some (c : Dev nD) (n : ℕ) (hn : n < cfg5.N + 1) :
    scrAt5 V c n hn ⊢ iprop(∃ X, owns (c : Thread nD τ) scr5 fullShare X) := by
  cases n with
  | zero => exact .rfl
  | succ n => unfold scrAt5; iintro H; iexists _; iexact H

theorem scrAt5_cast (c : Dev nD) (t : Fin cfg5.N) (h0 : t.val ≠ 0) :
    scrAt5 V c t.castSucc.val t.castSucc.isLt = owns (c : Thread nD τ) scr5 fullShare (prev5 V c t) := by
  obtain ⟨n, hn⟩ := t
  cases n with
  | zero => exact absurd rfl h0
  | succ n => rfl

/-- The proof data: after the body at point `t` the inputs are their blocks and the output block is the scratch's sum plus
    the bias row; between points the scratch holds its running sum. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k2_pay3 (accAt5 V c t.val t.isLt) (iblk5 V c 2 t)
  Φ t := iprop(scrAt5 V c t.val t.isLt
    ∗ Pipeline.scopedRestBut (Ix := Unit) (Name := ℕ) (U := UR sig nD τ) (Lvl := ℕ) (Val := Elt F) spec5 c [cc5_scratch0]
    ∗ ∃ r, prngReg c r)
  q _ := fullShare
  owed _ := 0

theorem A_eq5 (c : Dev nD) (w : Fin cfg5.W) : (dat5 V c).A w = V c (Pipeline.arrRef spec5 w) := rfl
theorem after5_0 (c : Dev nD) (t : Fin cfg5.N) : (dat5 V c).after 0 t = iblk5 V c 0 t := rfl
theorem after5_1 (c : Dev nD) (t : Fin cfg5.N) : (dat5 V c).after 1 t = iblk5 V c 1 t := rfl
theorem after5_2 (c : Dev nD) (t : Fin cfg5.N) : (dat5 V c).after 2 t = iblk5 V c 2 t := rfl
theorem after5_3 (c : Dev nD) (t : Fin cfg5.N) :
    (dat5 V c).after 3 t = k2_pay3 (accAt5 V c t.val t.isLt) (iblk5 V c 2 t) := rfl

theorem inv5_eq (c : Dev nD) (t : Fin (cfg5.N + 1)) : (dat5 V c).Φ t = iprop(scrAt5 V c t.val t.isLt
    ∗ Pipeline.scopedRestBut (Ix := Unit) (Name := ℕ) (U := UR sig nD τ) (Lvl := ℕ) (Val := Elt F) spec5 c [cc5_scratch0]
    ∗ ∃ r, prngReg c r) := rfl

/-- On entry the scratch holds anything, -/
theorem inv5_in (c : Dev nD) : (Pipeline.ΦA spec5 c : sProp 𝕄) ⊢ (dat5 V c).Φ 0 := by
  rw [inv5_eq]; unfold Pipeline.ΦA; rw [scopedRest5_split]
  show _ ⊢ iprop(iprop(∃ X, owns (c : Thread nD τ) scr5 fullShare X) ∗ _ ∗ _)
  iintro ⟨⟨⟨%f, Hs⟩, Hr⟩, Hp⟩
  iframe
  iexists f; rw [owns_whole]; iexact Hs

theorem scr5_forget (c : Dev nD) (X : Vec F S2048x128 .f32) :
    (owns (c : Thread nD τ) scr5 fullShare X : sProp 𝕄)
      ⊢ iprop(∃ f : Buf (Elt F) ((c : Thread nD τ).loc cc5_scratch0), ((c : Thread nD τ).loc cc5_scratch0) ↦{fullShare} f) := by
  rw [owns_whole]; iintro H; iexists X; iexact H

/-- and on exit its contents are forgotten. -/
theorem inv5_out (c : Dev nD) : (dat5 V c).Φ (Fin.last cfg5.N) ⊢ (Pipeline.ΦA spec5 c : sProp 𝕄) := by
  rw [inv5_eq]; unfold Pipeline.ΦA; rw [scopedRest5_split]
  iintro ⟨Hs, Hr, Hp⟩
  iframe
  ihave Hs' := (scrAt5_some V c _ _) $$ Hs
  icases Hs' with ⟨%X, Hs'⟩
  iapply (scr5_forget c X) $$ Hs'

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d

/-- What the body is given at point `t`. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- Where `kc ≠ 124` the output block is untouched and the scratch gains one product, over zero if `kc = 0` and over the sum of
    the point before otherwise. -/
theorem sound_idle5 (c : Dev nD) (t : Fin cfg5.N) (h : ¬ t.val % 125 = 124) :
    bodyPre5 V c t ⊢ wp frame (wpE (defs₀ (F := F)) Variants.none c none) Set.univ (bodyAt5 t) (fun _ =>
      iprop((dat5 V c).Φ t.succ ∗ (dat5 V c).owesAt () t.succ
        ∗ owns (c : Thread nD τ) (st5_0 t) fullShare ((dat5 V c).after 0 t)
        ∗ owns (c : Thread nD τ) (st5_1 t) fullShare ((dat5 V c).after 1 t)
        ∗ owns (c : Thread nD τ) (st5_2 t) fullShare ((dat5 V c).after 2 t)
        ∗ (∃ d, owns (c : Thread nD τ) (st5_3 t) fullShare ((dat5 V c).before 3 t d)))) := by
  unfold bodyPre5 bodyAt5
  rw [same_kernel5]
  simp only [before5_0, before5_1, before5_2]
  rw [show (dat5 V c).owesAt () t.succ = (dat5 V c).owesAt () t.castSucc from rfl, after5_0, after5_1, after5_2,
    inv5_eq, inv5_eq, show scrAt5 V c t.succ.val t.succ.isLt = owns (c : Thread nD τ) scr5 fullShare (accAt5 V c t.val t.isLt) from rfl]
  have hk : ¬ k2_cond2 (grid5.coords t) = 1#1 := fun hk => h ((hcond2_1 t).mp hk)
  by_cases h0 : t.val % 125 = 0
  · rw [accAt5_first V c t h0]
    refine .trans ?_ (runFirst2 c (grid5.coords t) _ _ _ _ _ _ _ _ _ _ ((hcond2_0 t).mpr h0) hk (iblk5 V c 0 t) (iblk5 V c 1 t) Set.univ _)
    iintro ⟨⟨Hs, Hr, Hp⟩, Ho, ⟨%d0, H0⟩, ⟨%d1, H1⟩, ⟨%d2, H2⟩, H3⟩
    ihave Hs' := (scrAt5_some V c _ _) $$ Hs
    iframe H0 H1 Hs'
    iintro ⟨H0, H1, Hs⟩
    iframe
  · have ht0 : t.val ≠ 0 := fun e => h0 (by rw [e])
    rw [accAt5_next V c t h0, scrAt5_cast V c t ht0]
    refine .trans ?_ (runMid2 c (grid5.coords t) _ _ _ _ _ _ _ _ _ _ (fun hc => h0 ((hcond2_0 t).mp hc)) hk (iblk5 V c 0 t) (iblk5 V c 1 t) (prev5 V c t) Set.univ _)
    iintro ⟨⟨Hs, Hr, Hp⟩, Ho, ⟨%d0, H0⟩, ⟨%d1, H1⟩, ⟨%d2, H2⟩, H3⟩
    iframe H0 H1 Hs
    iintro ⟨H0, H1, Hs⟩
    iframe

/-- Where `kc = 124` the scratch gains the row block's last product and the output block ends at that sum plus the bias row. -/
theorem sound_last5 (c : Dev nD) (t : Fin cfg5.N) (h : t.val % 125 = 124) :
    bodyPre5 V c t ⊢ wp frame (wpE (defs₀ (F := F)) Variants.none c none) Set.univ (bodyAt5 t) (fun _ =>
      iprop((dat5 V c).Φ t.succ ∗ (dat5 V c).owesAt () t.succ
        ∗ owns (c : Thread nD τ) (st5_0 t) fullShare ((dat5 V c).after 0 t)
        ∗ owns (c : Thread nD τ) (st5_1 t) fullShare ((dat5 V c).after 1 t)
        ∗ owns (c : Thread nD τ) (st5_2 t) fullShare ((dat5 V c).after 2 t)
        ∗ owns (c : Thread nD τ) (st5_3 t) fullShare ((dat5 V c).after 3 t))) := by
  unfold bodyPre5 bodyAt5
  rw [same_kernel5]
  simp only [before5_0, before5_1, before5_2]
  have h0 : ¬ t.val % 125 = 0 := by omega
  have ht0 : t.val ≠ 0 := fun e => h0 (by rw [e])
  rw [show (dat5 V c).owesAt () t.succ = (dat5 V c).owesAt () t.castSucc from rfl, after5_0, after5_1, after5_2, after5_3,
    inv5_eq, inv5_eq, show scrAt5 V c t.succ.val t.succ.isLt = owns (c : Thread nD τ) scr5 fullShare (accAt5 V c t.val t.isLt) from rfl,
    accAt5_next V c t h0, scrAt5_cast V c t ht0]
  refine .trans ?_ (runLast2 c (grid5.coords t) _ _ _ _ _ _ _ _ _ _ (fun hc => h0 ((hcond2_0 t).mp hc)) ((hcond2_1 t).mpr h)
    (iblk5 V c 0 t) (iblk5 V c 1 t) (iblk5 V c 2 t) (prev5 V c t) Set.univ _)
  iintro ⟨⟨Hs, Hr, Hp⟩, Ho, ⟨%d0, H0⟩, ⟨%d1, H1⟩, ⟨%d2, H2⟩, ⟨%d3, H3⟩⟩
  iframe H0 H1 H2 Hs
  isplitl [H3]; · iexists _; iexact H3
  iintro ⟨H0, H1, H2, H3, Hs⟩
  iframe

/-- The body obligation at every point: the output block is stored exactly where `kc = 124`. -/
theorem body_obligation5 (c : Dev nD) : BodyObligation (dat5 (F := F) V c) (defs₀ (F := F)) Variants.none () Set.univ := fun t => by
  rw [bigSep_W5, bigSep_W5]
  by_cases h : t.val % 125 = 124
  · have hidle : idle5 3 (grid5.coords t) = false := by
      show (!(k2_cond2 (grid5.coords t) == 1#1)) = false
      rw [(hcond2_1 t).mpr h]; rfl
    simp only [hidle]
    exact sound_last5 V c t h
  · have hidle : idle5 3 (grid5.coords t) = true := by
      show (!(k2_cond2 (grid5.coords t) == 1#1)) = true
      rw [Bool.not_eq_true', beq_eq_false_iff_ne]
      exact fun hk => h ((hcond2_1 t).mp hk)
    have hflush : (win5 3).flush t = false := Bool.eq_false_iff.mpr fun hf => h ((flush5_3 t).mp hf)
    simp only [hidle, hflush]
    exact sound_idle5 V c t h

end Cert.KernelIdeal.Hand

end
-- ==== Proof.KI.Stages.lean ====
import proofs.«425587_j43765716746405_1_alg».proof.Proof.Gen.KernelIdeal.Regions
import proofs.«425587_j43765716746405_1_alg».proof.Proof.KI.R0
import proofs.«425587_j43765716746405_1_alg».proof.Proof.KI.R1
import proofs.«425587_j43765716746405_1_alg».proof.Proof.KI.R2
import proofs.«425587_j43765716746405_1_alg».proof.Proof.KI.R3
import proofs.«425587_j43765716746405_1_alg».proof.Proof.KI.R4
import proofs.«425587_j43765716746405_1_alg».proof.Proof.KI.R5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev tc (W : Dev nD → Valuation τ sig (Elt F)) : (c : Dev nD) → (b : Ref sig .tc) → Buf (Elt F) ((c : Thread nD τ).loc b) :=
  fun c b => W c b

/-! The buffers' contents between the program's items: what each host stretch computes, and after a kernel region the same
    with the region's output array replaced. -/

abbrev U5 : Dev nD → Valuation τ sig (Elt F) := fun c => Gen.V5 m c
def X6 (c : Dev nD) : Valuation τ sig (Elt F) :=
  Function.update (U5 m c) main_v34 ((dat0 (tc (U5 m)) c).arrAt 2 cfg0.N)
def X7 (c : Dev nD) : Valuation τ sig (Elt F) :=
  Function.update (X6 m c) main_v35 ((dat1 (tc (X6 m)) c).arrAt 3 cfg1.N)
abbrev U8 : Dev nD → Valuation τ sig (Elt F) := fun c => StableHlo.after hostOps2 (X7 m c)
def X9 (c : Dev nD) : Valuation τ sig (Elt F) :=
  Function.update (U8 m c) main_v39 ((dat2 (tc (U8 m)) c).arrAt 3 cfg2.N)
abbrev U10 : Dev nD → Valuation τ sig (Elt F) := fun c => StableHlo.after hostOps3 (X9 m c)
def X11 (c : Dev nD) : Valuation τ sig (Elt F) :=
  Function.update (U10 m c) main_v42 ((dat3 (tc (U10 m)) c).arrAt 2 cfg3.N)
def X12 (c : Dev nD) : Valuation τ sig (Elt F) :=
  Function.update (X11 m c) main_v43 ((dat4 (tc (X11 m)) c).arrAt 3 cfg4.N)
abbrev U13 : Dev nD → Valuation τ sig (Elt F) := fun c => StableHlo.after hostOps5 (X12 m c)
def X14 (c : Dev nD) : Valuation τ sig (Elt F) :=
  Function.update (U13 m c) main_v47 ((dat5 (tc (U13 m)) c).arrAt 3 cfg5.N)

/-- What the regions leave, as the conditional frame's unknowns. -/
def outs : Gen.Outs (F := F) := fun J r c =>
  match J with
  | 6 => X6 m c r
  | 7 => X7 m c r
  | 9 => X9 m c r
  | 11 => X11 m c r
  | 12 => X12 m c r
  | _ => X14 m c r

theorem V6_eq (c : Dev nD) : Gen.V6 m (outs m) c = X6 m c := by
  show Function.update (Gen.V5 m c) main_v34 (X6 m c main_v34) = X6 m c
  unfold X6; rw [Function.update_self]
theorem V7_eq (c : Dev nD) : Gen.V7 m (outs m) c = X7 m c := by
  show Function.update (Gen.V6 m (outs m) c) main_v35 (X7 m c main_v35) = X7 m c
  rw [V6_eq]; unfold X7; rw [Function.update_self]
theorem V8_eq (c : Dev nD) : Gen.V8 m (outs m) c = U8 m c := by
  show StableHlo.after hostOps2 (Gen.V7 m (outs m) c) = _
  rw [V7_eq]
theorem V9_eq (c : Dev nD) : Gen.V9 m (outs m) c = X9 m c := by
  show Function.update (Gen.V8 m (outs m) c) main_v39 (X9 m c main_v39) = X9 m c
  rw [V8_eq]; unfold X9; rw [Function.update_self]
theorem V10_eq (c : Dev nD) : Gen.V10 m (outs m) c = U10 m c := by
  show StableHlo.after hostOps3 (Gen.V9 m (outs m) c) = _
  rw [V9_eq]
theorem V11_eq (c : Dev nD) : Gen.V11 m (outs m) c = X11 m c := by
  show Function.update (Gen.V10 m (outs m) c) main_v42 (X11 m c main_v42) = X11 m c
  rw [V10_eq]; unfold X11; rw [Function.update_self]
theorem V12_eq (c : Dev nD) : Gen.V12 m (outs m) c = X12 m c := by
  show Function.update (Gen.V11 m (outs m) c) main_v43 (X12 m c main_v43) = X12 m c
  rw [V11_eq]; unfold X12; rw [Function.update_self]
theorem V13_eq (c : Dev nD) : Gen.V13 m (outs m) c = U13 m c := by
  show StableHlo.after hostOps5 (Gen.V12 m (outs m) c) = _
  rw [V12_eq]
theorem V14_eq (c : Dev nD) : Gen.V14 m (outs m) c = X14 m c := by
  show Function.update (Gen.V13 m (outs m) c) main_v47 (X14 m c main_v47) = X14 m c
  rw [V13_eq]; unfold X14; rw [Function.update_self]

/-! Each region changes its one output buffer and nothing else. -/

theorem X6_out (c : Dev nD) : X6 m c main_v34 = (dat0 (tc (U5 m)) c).arrAt 2 cfg0.N :=
  Function.update_self ..
theorem X6_of (c : Dev nD) (r : Ref sig .tc) (h : r ≠ main_v34) : X6 m c r = U5 m c r :=
  Function.update_of_ne (StableHlo.devRef_ne_of_ne h) ..

theorem X7_out (c : Dev nD) : X7 m c main_v35 = (dat1 (tc (X6 m)) c).arrAt 3 cfg1.N :=
  Function.update_self ..
theorem X7_of (c : Dev nD) (r : Ref sig .tc) (h : r ≠ main_v35) : X7 m c r = X6 m c r :=
  Function.update_of_ne (StableHlo.devRef_ne_of_ne h) ..

theorem X9_out (c : Dev nD) : X9 m c main_v39 = (dat2 (tc (U8 m)) c).arrAt 3 cfg2.N :=
  Function.update_self ..
theorem X9_of (c : Dev nD) (r : Ref sig .tc) (h : r ≠ main_v39) : X9 m c r = U8 m c r :=
  Function.update_of_ne (StableHlo.devRef_ne_of_ne h) ..

theorem X11_out (c : Dev nD) : X11 m c main_v42 = (dat3 (tc (U10 m)) c).arrAt 2 cfg3.N :=
  Function.update_self ..
theorem X11_of (c : Dev nD) (r : Ref sig .tc) (h : r ≠ main_v42) : X11 m c r = U10 m c r :=
  Function.update_of_ne (StableHlo.devRef_ne_of_ne h) ..

theorem X12_out (c : Dev nD) : X12 m c main_v43 = (dat4 (tc (X11 m)) c).arrAt 3 cfg4.N :=
  Function.update_self ..
theorem X12_of (c : Dev nD) (r : Ref sig .tc) (h : r ≠ main_v43) : X12 m c r = X11 m c r :=
  Function.update_of_ne (StableHlo.devRef_ne_of_ne h) ..

theorem X14_out (c : Dev nD) : X14 m c main_v47 = (dat5 (tc (U13 m)) c).arrAt 3 cfg5.N :=
  Function.update_self ..
theorem X14_of (c : Dev nD) (r : Ref sig .tc) (h : r ≠ main_v47) : X14 m c r = U13 m c r :=
  Function.update_of_ne (StableHlo.devRef_ne_of_ne h) ..

end Cert.KernelIdeal.Hand

end
-- ==== Proof.KI.Regs.lean ====
import proofs.«425587_j43765716746405_1_alg».proof.Proof.Gen.KernelIdeal.Regions
import proofs.«425587_j43765716746405_1_alg».proof.Proof.KI.Stages
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option backward.isDefEq.respectTransparency.types false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ
local notation "ℂ" => Pipeline.pin (pcfgs (F := F)) Gen.adm

variable (m : (ℓ : Loc nD τ sig) → Buf (Elt F) ℓ)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- Every pipeline's proof data, at the contents its region is entered with. -/
def pdats : (p : Fin 6) → (c : Dev nD) → Dat τ (Elt F) Unit ℕ (UR sig nD τ) ℕ (ℂ p) c
  | ⟨0, _⟩ => fun c => dat0 (tc (U5 m)) c
  | ⟨1, _⟩ => fun c => dat1 (tc (X6 m)) c
  | ⟨2, _⟩ => fun c => dat2 (tc (U8 m)) c
  | ⟨3, _⟩ => fun c => dat3 (tc (U10 m)) c
  | ⟨4, _⟩ => fun c => dat4 (tc (X11 m)) c
  | ⟨5, _⟩ => fun c => dat5 (tc (U13 m)) c

/-- Region `p` as a segment of the run, entered at the contents `Vi` and left at `Vo`, which differ only in the array of the
    region's output window `wo`: every input array is as at entry, the output array is what the region's points leave. -/
def mkReg (p : Fin 6) (lf : Pipeline.LaunchFacts (nD := nD) (τ := τ) cfgs p) (Vi Vo : Dev nD → Valuation τ sig (Elt F))
    (hb : ∀ c, BodyObligation (pdats m p c) (defs₀ (F := F)) 𝒱₀ () Set.univ)
    (hq : ∀ c w, (pdats m p c).q w = fullShare) (ho : ∀ c t, (pdats m p c).owed t = 0)
    (hr : ∀ c t, (pdats m p c).recorded t = Set.univ)
    (hA : ∀ c w, (pdats m p c).A w = tc Vi c (Pipeline.arrRef (ℂ p).spec w))
    (wo : Fin (ℂ p).W) (hio : ∀ w, w ≠ wo → ((ℂ p).win w).isOut = false)
    (hout' : ∀ c, tc Vo c (Pipeline.arrRef (ℂ p).spec wo) = (pdats m p c).arrAt wo (ℂ p).N)
    (hof : ∀ c r, r ≠ Pipeline.arrRef (ℂ p).spec wo → tc Vo c r = tc Vi c r)
    (hin : ∀ c, (Pipeline.ΦA (ℂ p).spec c : sProp 𝕄) ⊢ (pdats m p c).Φ 0)
    (hout : ∀ c, (pdats m p c).Φ (Fin.last _) ⊢ (Pipeline.ΦA (ℂ p).spec c : sProp 𝕄)) :
    RegionSeg (pcfgs (F := F)) Gen.adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop(∃ r, prngReg c r)
  Z c := Pipeline.unscopedRest (Ix := Unit) (Name := ℕ) (U := UR sig nD τ) (Lvl := ℕ) (ℂ p).spec c (tc Vi c)
  hentry c := by
    rw [Pipeline.ownSems0_none]
    have hsplit := Pipeline.arrays_of_unscopedBufs (p := p) (pcfgs (F := F)) Gen.adm (pdats m) lf.win lf.arr_whole c
      ((pdats m p c).share_full (hq c)) (tc Vi c) (hA c)
    rw [Pipeline.unscopedBufs_held] at hsplit
    unfold Pipeline.Dat.owesAt Pipeline.owesWithin Pipeline.Dat.bound Pipeline.prefHeld
    rw [ho, hr, show (Finset.univ : Finset (Fin 0)) = ∅ from rfl, BI.bigSep_empty]
    iintro ⟨⟨Hub, Hp, %W, HO⟩, -, -⟩
    ihave H := hsplit $$ Hub
    icases H with ⟨Ha, Hrest⟩
    imodintro
    iframe
    isplitr; · iempintro
    iexists W; isplitr; · ipureintro; exact fun _ _ => Or.inl trivial
    iexact HO
  hin c := by
    refine .trans ?_ (hin c)
    unfold Pipeline.ΦA
    iintro ⟨Hp, -, Hr⟩
    iframe
  hout c := by
    rw [Pipeline.ownSems0_none]
    refine (hout c).trans ?_
    unfold Pipeline.ΦA
    iintro ⟨Hr, Hp⟩
    iframe
    iempintro
  hexit c := by
    have hjoin := Pipeline.unscopedBufs_of_arrays (p := p) (pcfgs (F := F)) Gen.adm (Ix := Unit) (Name := ℕ) (U := UR sig nD τ) (Lvl := ℕ)
      lf.win lf.arr_whole c (pdats m) ((pdats m p c).share_full (hq c))
      (tc Vi c) (tc Vo c) ((pdats m p c).arrAt · (ℂ p).N)
      (fun w => by
        by_cases h : w = wo
        · rw [h, hout']
        · exact (((pdats m p c).arrAt_in w (hio w h) _).trans (hA c w)).trans (hof c _ fun e => h (lf.win.arr_inj e)).symm)
      (fun b hb => hof c b fun e => hb (Finset.mem_image.mpr ⟨wo, Finset.mem_univ _, e.symm⟩))
    rw [Pipeline.unscopedBufs_held] at hjoin
    unfold Pipeline.Dat.owesAt Pipeline.owesWithin
    rw [ho]
    iintro ⟨Ha, ⟨%W, -, HO⟩, HY, Hrest⟩
    imodintro
    isplitl [Ha Hrest]
    · iapply hjoin; iframe
    isplitl [HY]; · iexact HY
    iexists W; iexact HO

/-! The six regions. -/

def reg0 := mkReg m 0 launch0 (U5 m) (X6 m) (body_obligation0 (tc (U5 m))) (fun _ _ => rfl) (fun _ _ => rfl) (fun _ _ => rfl)
  (fun _ _ => rfl) 2 (by decide : ∀ w : Fin cfg0.W, w ≠ 2 → (cfg0.win w).isOut = false) (X6_out m) (X6_of m) (fun _ => .rfl) (fun _ => .rfl)
def reg1 := mkReg m 1 launch1 (X6 m) (X7 m) (body_obligation1 (tc (X6 m))) (fun _ _ => rfl) (fun _ _ => rfl) (fun _ _ => rfl)
  (fun _ _ => rfl) 3 (by decide : ∀ w : Fin cfg1.W, w ≠ 3 → (cfg1.win w).isOut = false) (X7_out m) (X7_of m) (fun _ => .rfl) (fun _ => .rfl)
def reg2 := mkReg m 2 launch2 (U8 m) (X9 m) (body_obligation2 (tc (U8 m))) (fun _ _ => rfl) (fun _ _ => rfl) (fun _ _ => rfl)
  (fun _ _ => rfl) 3 (by decide : ∀ w : Fin cfg2.W, w ≠ 3 → (cfg2.win w).isOut = false) (X9_out m) (X9_of m) (inv2_in (tc (U8 m))) (inv2_out (tc (U8 m)))
def reg3 := mkReg m 3 launch3 (U10 m) (X11 m) (body_obligation3 (tc (U10 m))) (fun _ _ => rfl) (fun _ _ => rfl) (fun _ _ => rfl)
  (fun _ _ => rfl) 2 (by decide : ∀ w : Fin cfg3.W, w ≠ 2 → (cfg3.win w).isOut = false) (X11_out m) (X11_of m) (fun _ => .rfl) (fun _ => .rfl)
def reg4 := mkReg m 4 launch4 (X11 m) (X12 m) (body_obligation4 (tc (X11 m))) (fun _ _ => rfl) (fun _ _ => rfl) (fun _ _ => rfl)
  (fun _ _ => rfl) 3 (by decide : ∀ w : Fin cfg4.W, w ≠ 3 → (cfg4.win w).isOut = false) (X12_out m) (X12_of m) (fun _ => .rfl) (fun _ => .rfl)
def reg5 := mkReg m 5 launch5 (U13 m) (X14 m) (body_obligation5 (tc (U13 m))) (fun _ _ => rfl) (fun _ _ => rfl) (fun _ _ => rfl)
  (fun _ _ => rfl) 3 (by decide : ∀ w : Fin cfg5.W, w ≠ 3 → (cfg5.win w).isOut = false) (X14_out m) (X14_of m) (inv5_in (tc (U13 m))) (inv5_out (tc (U13 m)))

end Cert.KernelIdeal.Hand

end
-- ==== Proof.KI.Run.lean ====
import proofs.«425587_j43765716746405_1_alg».proof.Proof.KI.Regs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option backward.isDefEq.respectTransparency.types false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ
local notation "ℂ" => Pipeline.pin (pcfgs (F := F)) Gen.adm

variable (m : (ℓ : Loc nD τ sig) → Buf (Elt F) ℓ)

/-- The generated conditional frame with the result buffer named as well: given the six region records the program
    terminates, the result buffer holds what the last valuation gives it, and every argument is as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 6) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 7 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE6 : ∀ c : Dev nD, E 6 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V8 m outs c) ∗ E 2 c) ⊢ R2.pre c)
    (hpost2 : ∀ c : Dev nD, R2.post c ⊢ iprop(StableHlo.held (c : Thread nD τ) (Pipeline.ucRefs τ sig) (V9 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V10 m outs c) ∗ E 3 c) ⊢ R3.pre c)
    (hpost3 : ∀ c : Dev nD, R3.post c ⊢ iprop(StableHlo.held (c : Thread nD τ) (Pipeline.ucRefs τ sig) (V11 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V13 m outs c) ∗ E 5 c) ⊢ R5.pre c)
    (hpost5 : ∀ c : Dev nD, R5.post c ⊢ iprop(StableHlo.held (c : Thread nD τ) (Pipeline.ucRefs τ sig) (V14 m outs c) ∗ E 6 c)) :
    θ_run defs (onTc (τ := τ) (main (F := F))) ⟨m, fun _ => 0, ρ⟩ (fun r => ∀ c : Dev nD,
      r.2.mem ((c.tc : Thread nD τ).loc main_v48) = Gen.V15 m outs c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) adm pdats ι cellOf_inj EP defs₀ 𝒱₀ L lv m ρ main
    (segs m outs 𝒱₀ L lv E ι pdats R0 R1 R2 R3 R4 R5)
    (fun c Q => by
      rewrite [main_chain c, Seg.run_eq_chain,
        show (segs m outs 𝒱₀ L lv E ι pdats R0 R1 R2 R3 R4 R5 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V15 m outs c))
    (hch := fun c => ⟨.rfl, .rfl, .rfl, .rfl, .rfl, hpre0 c, (hpost0 c).trans (hpre1 c), hpost1 c, hpre2 c, hpost2 c, hpre3 c, (hpost3 c).trans (hpre4 c), hpost4 c, hpre5 c, hpost5 c, sep_mono .rfl (hE6 c)⟩)
    (hinit := ?_) (QY := fun c s => s.mem ((c.tc : Thread nD τ).loc main_v48) = Gen.V15 m outs c main_v48 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V15 m outs c) s') $$ [Hh HSI]
    · isplitl [Hh] <;> iassumption
    icases Hr with ⟨%h, HSI⟩
    imodintro
    isplitr
    · ipureintro
      exact ⟨h (Proc.devRef .tc main_v48) (Finset.mem_filter.mpr ⟨StableHlo.devRef_mem_tcRefs main_v48, by decide⟩),
        (h (Proc.devRef .tc main_arg0) (Finset.mem_filter.mpr ⟨StableHlo.devRef_mem_tcRefs main_arg0, by decide⟩)).trans (V15_main_arg0 m outs c),
        (h (Proc.devRef .tc main_arg1) (Finset.mem_filter.mpr ⟨StableHlo.devRef_mem_tcRefs main_arg1, by decide⟩)).trans (V15_main_arg1 m outs c),
        (h (Proc.devRef .tc main_arg2) (Finset.mem_filter.mpr ⟨StableHlo.devRef_mem_tcRefs main_arg2, by decide⟩)).trans (V15_main_arg2 m outs c),
        (h (Proc.devRef .tc main_arg3) (Finset.mem_filter.mpr ⟨StableHlo.devRef_mem_tcRefs main_arg3, by decide⟩)).trans (V15_main_arg3 m outs c)⟩
    · iexact HSI

abbrev E : Fin 7 → Dev nD → sProp 𝕄 := fun _ c => R c

/-- Every weakly fair execution of the program from memory `m` terminates without a fault; the result buffer ends at the
    last valuation's contents and the four arguments as launched. -/
theorem run (ρ : Dev nD → PrngReg) :
    θ_run defs (onTc (τ := τ) (main (F := F))) ⟨m, fun _ => 0, ρ⟩ (fun r => ∀ c : Dev nD,
      r.2.mem ((c.tc : Thread nD τ).loc main_v48) = Gen.V15 m (outs m) c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    E
    (by
      have h : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ (iprop(emp) : sProp 𝕄)))
          ⊢ (bigSep Finset.univ (E (F := F) 0) : sProp 𝕄) :=
        bigSep_mono fun c _ =>
          (show (iprop(unscopedSems0 c ∗ owes (c : Thread nD τ) ((0 : Dev nD → CellTallies nD τ sig Unit) c) ∅
              ∗ Pipeline.launchCred (0 : Dev nD → CellTallies nD τ sig Unit) c ∗ prngReg c (ρ c) ∗ (iprop(emp) : sProp 𝕄)) : sProp 𝕄)
              ⊢ (iprop((∃ r, prngReg c r) ∗ ∃ W, owes (c : Thread nD τ) (0 : CellTallies nD τ sig Unit) W) : sProp 𝕄) from by
            iintro ⟨-, HO, -, Hp, -⟩
            isplitl [Hp]; · iexists _; iexact Hp
            iexists ∅; iexact HO)
      iintro ⟨H, -⟩
      imodintro
      iapply h; iexact H)
    (fun c => by iintro ⟨-, HO⟩; iexact HO)
    (reg0 m) (fun c => .rfl) (fun c => by rw [V6_eq]; exact .rfl)
    (reg1 m) (fun c => by rw [V6_eq]; exact .rfl) (fun c => by rw [V7_eq]; exact .rfl)
    (reg2 m) (fun c => by rw [V8_eq]; exact .rfl) (fun c => by rw [V9_eq]; exact .rfl)
    (reg3 m) (fun c => by rw [V10_eq]; exact .rfl) (fun c => by rw [V11_eq]; exact .rfl)
    (reg4 m) (fun c => by rw [V11_eq]; exact .rfl) (fun c => by rw [V12_eq]; exact .rfl)
    (reg5 m) (fun c => by rw [V13_eq]; exact .rfl) (fun c => by rw [V14_eq]; exact .rfl)

/-- The frame: the program runs and its arguments end unchanged. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

/-- A table of `N` rows of 128 numbers. -/
abbrev Sr (N : Nat) : Shape := ⟨2, ![N, 128]⟩
abbrev Sw : Shape := ⟨2, ![128, 128]⟩

/-- Row `n` of the table `H` times the 128 x 128 matrix `W`. -/
def mm {N : Nat} (H : (Sr N).Idx → EReal) (W : Sw.Idx → EReal) : (Sr N).Idx → EReal :=
  fun i => ∑ k : Fin 128, H (ix2 (i 0) k) * W (ix2 k (i 1))

/-- The gather as a product: the table times the matrix whose entry `(n, e)` is `nrm e` where `n` is the word `src e`, zero elsewhere. -/
def gaK (src : Fin 640000 → BitVec 32) (nrm : Fin 640000 → EReal) (M : (Sr 40960).Idx → EReal) : (Sr 640000).Idx → EReal :=
  fun i => ∑ n : Fin 40960, (if BitVec.ofNat 32 n.val = src (i 0) then nrm (i 0) else 0) * M (ix2 n (i 1))

/-- The scatter as a product: the messages times the matrix whose entry `(n, e)` is one where `n` is the word `dst e`, plus the bias. -/
def scK (dst : Fin 640000 → BitVec 32) (Msg : (Sr 640000).Idx → EReal) (b : Fin 128 → EReal) : (Sr 40960).Idx → EReal :=
  fun i => (∑ e : Fin 640000, (if BitVec.ofNat 32 (i 0).val = dst e then (1 : EReal) else 0) * Msg (ix2 e (i 1))) + b (i 1)

/-- One layer on the padded table: transform, gather, scatter. -/
def layerK (src dst : Fin 640000 → BitVec 32) (nrm : Fin 640000 → EReal) (H : (Sr 40960).Idx → EReal) (W : Sw.Idx → EReal)
    (b : Fin 128 → EReal) : (Sr 40960).Idx → EReal :=
  scK dst (gaK src nrm (mm H W)) b

/-- The row an indexed read takes for the word `w`: a negative word counts from the end, then the index is clamped into the table. -/
def rowR (w : BitVec 32) : Fin 40000 :=
  ⟨min ((if w.toInt < 0 then w + 40000#32 else w).toInt.toNat) 39999, by omega⟩

/-- The gather as an indexed read, times the edge weight. -/
def gaR (src : Fin 640000 → BitVec 32) (nrm : Fin 640000 → EReal) (M : (Sr 40000).Idx → EReal) : (Sr 640000).Idx → EReal :=
  fun i => M (ix2 (rowR (src (i 0))) (i 1)) * nrm (i 0)

/-- The scatter as an accumulation into zeros, plus the bias; an edge whose `dst` is no row adds nothing. -/
def scR (dst : Fin 640000 → BitVec 32) (Msg : (Sr 640000).Idx → EReal) (b : Fin 128 → EReal) : (Sr 40000).Idx → EReal :=
  fun i => (0 + ∑ e ∈ Finset.univ.filter (fun e : Fin 640000 => (dst e).toInt = ((i 0).val : ℤ)), Msg (ix2 e (i 1))) + b (i 1)

/-- One layer on the unpadded table: transform, indexed read, accumulation. -/
def layerR (src dst : Fin 640000 → BitVec 32) (nrm : Fin 640000 → EReal) (H : (Sr 40000).Idx → EReal) (W : Sw.Idx → EReal)
    (b : Fin 128 → EReal) : (Sr 40000).Idx → EReal :=
  scR dst (gaR src nrm (mm H W)) b

/-- Every source word is a row of the unpadded table. -/
def SrcOk (src : Fin 640000 → BitVec 32) : Prop := ∀ e, 0 ≤ (src e).toInt ∧ (src e).toInt < 40000

/-- The two rows of the edge-index array, and layer `l`'s matrix and bias row. -/
def srcOf (a3 : (⟨2, ![2, 640000]⟩ : Shape).Idx → BitVec 32) : Fin 640000 → BitVec 32 := fun e => a3 (ix2 0 e)
def dstOf (a3 : (⟨2, ![2, 640000]⟩ : Shape).Idx → BitVec 32) : Fin 640000 → BitVec 32 := fun e => a3 (ix2 1 e)
def Wl (W : (⟨3, ![2, 128, 128]⟩ : Shape).Idx → EReal) (l : Fin 2) : Sw.Idx → EReal := fun i => W (ix3 l (i 0) (i 1))
def bl (b : (⟨2, ![2, 128]⟩ : Shape).Idx → EReal) (l : Fin 2) : Fin 128 → EReal := fun d => b (ix2 l d)

/-- Two layers on the padded table. -/
def netK (src dst : Fin 640000 → BitVec 32) (nrm : Fin 640000 → EReal) (xp : (Sr 40960).Idx → EReal)
    (W : (⟨3, ![2, 128, 128]⟩ : Shape).Idx → EReal) (b : (⟨2, ![2, 128]⟩ : Shape).Idx → EReal) : (Sr 40960).Idx → EReal :=
  layerK src dst nrm (layerK src dst nrm xp (Wl W 0) (bl b 0)) (Wl W 1) (bl b 1)

/-- Two layers on the unpadded table. -/
def netR (src dst : Fin 640000 → BitVec 32) (nrm : Fin 640000 → EReal) (x : (Sr 40000).Idx → EReal)
    (W : (⟨3, ![2, 128, 128]⟩ : Shape).Idx → EReal) (b : (⟨2, ![2, 128]⟩ : Shape).Idx → EReal) : (Sr 40000).Idx → EReal :=
  layerR src dst nrm (layerR src dst nrm x (Wl W 0) (bl b 0)) (Wl W 1) (bl b 1)

end Cert.Spec

end
-- ==== Proof.KI.P0.lean ====
import proofs.«425587_j43765716746405_1_alg».proof.Proof.Gen.KernelIdeal.Skeleton
import proofs.«425587_j43765716746405_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

theorem lhs_mm0_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs_mm0_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhs_mm0_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhs_mm0_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The product of a block of 2048 rows with the matrix at row `p`, column `q`: on the extended reals the format changes
    are the identity and the accumulator the product is added into is zero. -/
theorem pay0_apply (x0 : Vec Ideal S2048x128 .f32) (x1 : Vec Ideal S128x128 .f32) (p : Fin 2048) (q : Fin 128) :
    k0_pay1 (F := Ideal) x0 x1 (ix2 p q) = ∑ k : Fin 128, x0 (ix2 p k) * x1 (ix2 k q) := by
  unfold k0_pay1
  rw [shapeCast_self, shapeCast_self]
  refine (truncf_apply (φ := .f32) (ψ := .bf16) _ bitsLt_bf16_f32 (ix2 p q)).trans ?_
  refine (Ideal.matmul_constant_zero_apply dot_S2048x128_S128x128_S2048x128_1_0_0_1_n_n none _ _ (ix2 p q)).trans ?_
  rw [← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p q) ((contrEquiv1 dot_S2048x128_S128x128_S2048x128_1_0_0_1_n_n 128 rfl rfl).symm k) = ix2 p k := funext fun a => Fin.ext (by
    match a with
    | ⟨0, _⟩ => exact lhs_mm0_0 _ _
    | ⟨1, _⟩ => exact (lhs_mm0_1 _ _).trans hk)
  have er : dot_S2048x128_S128x128_S2048x128_1_0_0_1_n_n.rhsIdx (ix2 p q) ((contrEquiv1 dot_S2048x128_S128x128_S2048x128_1_0_0_1_n_n 128 rfl rfl).symm k) = ix2 k q := funext fun a => Fin.ext (by
    match a with
    | ⟨0, _⟩ => exact (rhs_mm0_0 _ _).trans hk
    | ⟨1, _⟩ => exact rhs_mm0_1 _ _)
  rw [el, er]
  rfl

theorem zero_offsets : (![0, 0] : Fin 2 → Nat) = fun _ => 0 := funext fun a => by fin_cases a <;> rfl

/-- If the row block holds the rows of `A` that `i` names and the matrix block holds `B`, the payload at `j` is `A · B` at `i`. -/
theorem pay0_eq_mm (A : S40960x128.Idx → EReal) (B : S128x128.Idx → EReal)
    (x0 : Vec Ideal S2048x128 .f32) (x1 : Vec Ideal S128x128 .f32) (i : S40960x128.Idx) (j : S2048x128.Idx)
    (h0 : ∀ k : Fin 128, x0 (ix2 (j 0) k) = A (ix2 (i 0) k))
    (h1 : ∀ k : Fin 128, x1 (ix2 k (j 1)) = B (ix2 k (i 1))) :
    k0_pay1 (F := Ideal) x0 x1 j = mm (N := 40960) A B i := by
  refine (congrArg (k0_pay1 (F := Ideal) x0 x1) (eq_ix2 j)).trans ?_
  refine (pay0_apply x0 x1 (j 0) (j 1)).trans ?_
  show _ = ∑ k : Fin 128, A (ix2 (i 0) k) * B (ix2 k (i 1))
  exact Finset.sum_congr rfl fun k _ => by rw [h0 k, h1 k]

end Cert.KernelIdeal.Hand

end
-- ==== Proof.KI.Val0.lean ====
import proofs.«425587_j43765716746405_1_alg».proof.Proof.KI.R0
import proofs.«425587_j43765716746405_1_alg».proof.Proof.KI.P0

noncomputable section

open scoped BigOperators

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The printed index maps over the 20 points: the feature block and the output block are block `t` of their arrays' rows,
    the matrix is fetched whole. -/
theorem idx_rows0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point `t`'s output block is block `t` of the product of the feature table with the matrix. -/
theorem flushed0_2_eq (c : Dev nD) (t : Fin cfg0.N) :
    (dat0 (F := Ideal) V c).flushed 2 t
      = ((cfg0.win 2).blk t).view.read (Elt Ideal) (mm (N := 40960) (V c main_v31) (V c main_v33)) := by
  show (cfg0.win 2).cut (grid0.coords t) ((dat0 (F := Ideal) V c).after 2 t) = _
  rw [after0_2]
  unfold out0_2
  rw [View.canon_unit_zero zero_offsets]
  simp only [View.ld_unit_zero (S := S2048x128) zero_offsets, View.ld_unit_zero (S := S128x128) zero_offsets]
  obtain ⟨e00, e01, e10, e11, e20, e21⟩ := idx_rows0 t
  funext j
  show k0_pay1 (F := Ideal) (iblk0 V c 0 t) (iblk0 V c 1 t) j
      = mm (N := 40960) (V c main_v31) (V c main_v33) (((cfg0.win 2).blk t).view.emb j)
  refine pay0_eq_mm (V c main_v31) (V c main_v33) (iblk0 V c 0 t) (iblk0 V c 1 t) (((cfg0.win 2).blk t).view.emb j) j
    (fun k => ?_) (fun k => ?_)
  · show V c main_v31 (((cfg0.win 0).blk t).view.emb (ix2 (j 0) k))
        = V c main_v31 (ix2 ((((cfg0.win 2).blk t).view.emb j) 0) k)
    refine congrArg (V c main_v31) (funext fun a => Fin.ext ?_)
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 128 + 1 * k.val = k.val; omega
  · show V c main_v33 (((cfg0.win 1).blk t).view.emb (ix2 k (j 1)))
        = V c main_v33 (ix2 k ((((cfg0.win 2).blk t).view.emb j) 1))
    refine congrArg (V c main_v33) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

theorem mem_blk0_2 (t : Fin cfg0.N) (i : S40960x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v34).slice (win0_2.rect t)).set ↔ _
  rw [View.set_slice_whole, Rect.mem_set_unit]
  exact Iff.rfl

/-- Row `r` lies in the block of point `r / 2048`. -/
theorem covered0_2 (i : S40960x128.Idx) :
    ∃ t : Fin cfg0.N, (cfg0.win 2).flush t = true ∧ i ∈ ((cfg0.win 2).blk t).view.set := by
  have hi0 : (i 0).val < 40960 := (i 0).isLt
  have hi1 : (i 1).val < 128 := (i 1).isLt
  have hN : cfg0.N = 20 := by decide
  have ht : (i 0).val / 2048 < cfg0.N := by rw [hN]; omega
  obtain ⟨-, -, -, -, e20, e21⟩ := idx_rows0 ⟨(i 0).val / 2048, ht⟩
  refine ⟨⟨(i 0).val / 2048, ht⟩, flush0_2 _, ?_⟩
  rw [mem_blk0_2]
  intro a
  match a with
  | ⟨0, _⟩ =>
    show win0_2.index ⟨(i 0).val / 2048, ht⟩ (0 : Fin 2) * 2048 ≤ (i 0).val
      ∧ (i 0).val < win0_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win0_2.index ⟨(i 0).val / 2048, ht⟩ (1 : Fin 2) * 128 ≤ (i 1).val
      ∧ (i 1).val < win0_2.index ⟨(i 0).val / 2048, ht⟩ (1 : Fin 2) * 128 + 128
    rw [e21]; omega

/-- After the region its output array is the product of the padded features with the matrix. -/
theorem arrAt0_2 (c : Dev nD) :
    (dat0 (F := Ideal) V c).arrAt 2 cfg0.N = Cert.Spec.mm (N := 40960) (V c main_v31) (V c main_v33) :=
  (dat0 (F := Ideal) V c).arrAt_eq_of_cover 2 _ (fun t _ => flushed0_2_eq V c t) covered0_2

end Cert.KernelIdeal.Hand

end
-- ==== Proof.KI.P1.lean ====
import proofs.«425587_j43765716746405_1_alg».proof.Proof.Gen.KernelIdeal.Skeleton
import proofs.«425587_j43765716746405_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

private theorem ofBool_one_iff (c : Bool) : BitVec.ofBool c = 1#1 ↔ c = true := by cases c <;> decide

private theorem select_cmpi_eq {α : Type} (a b : BitVec 32) (A B : α) :
    Scalar.select (IntOp.cmpi .eq a b) A B = if a = b then A else B := by
  have bit : IntOp.cmpi .eq a b = 1#1 ↔ a = b := (ofBool_one_iff (a == b)).trans beq_iff_eq
  by_cases h : a = b
  · rw [bit.mpr h, select_one, if_pos h]
  · rw [eq_zero_of_ne_one (fun hc => h (bit.mp hc)), select_zero, if_neg h]

private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_gather1_0 (i : S256x128.Idx) (k : dot_S40960x256_S40960x128_S256x128_0_0_1_1_n_n.contr.Idx) :
    (dot_S40960x256_S40960x128_S256x128_0_0_1_1_n_n.lhsIdx i k 0).val = (k ⟨0, by decide⟩).val :=
  dot_S40960x256_S40960x128_S256x128_0_0_1_1_n_n.lhsIdx_val_of_single rfl i k
theorem lhs_gather1_1 (i : S256x128.Idx) (k : dot_S40960x256_S40960x128_S256x128_0_0_1_1_n_n.contr.Idx) :
    (dot_S40960x256_S40960x128_S256x128_0_0_1_1_n_n.lhsIdx i k 1).val = (i 0).val := by
  unfold DotDims.lhsIdx
  rw [dif_neg (show ¬(1 : Fin S40960x256.rank) ∈ dot_S40960x256_S40960x128_S256x128_0_0_1_1_n_n.lhsBatch by decide),
    dif_pos (show (1 : Fin S40960x256.rank) ∈ dot_S40960x256_S40960x128_S256x128_0_0_1_1_n_n.lhsNonContracting by decide)]
  rfl
theorem rhs_gather1_0 (i : S256x128.Idx) (k : dot_S40960x256_S40960x128_S256x128_0_0_1_1_n_n.contr.Idx) :
    (dot_S40960x256_S40960x128_S256x128_0_0_1_1_n_n.rhsIdx i k 0).val = (k ⟨0, by decide⟩).val :=
  dot_S40960x256_S40960x128_S256x128_0_0_1_1_n_n.rhsIdx_val_of_single rfl i k
theorem rhs_gather1_1 (i : S256x128.Idx) (k : dot_S40960x256_S40960x128_S256x128_0_0_1_1_n_n.contr.Idx) :
    (dot_S40960x256_S40960x128_S256x128_0_0_1_1_n_n.rhsIdx i k 1).val = (i 1).val := by
  unfold DotDims.rhsIdx
  rw [dif_neg (show ¬(1 : Fin S40960x128.rank) ∈ dot_S40960x256_S40960x128_S256x128_0_0_1_1_n_n.rhsBatch by decide),
    dif_pos (show (1 : Fin S40960x128.rank) ∈ dot_S40960x256_S40960x128_S256x128_0_0_1_1_n_n.rhsNonContracting by decide)]
  rfl

/-- The weighted indicator the body builds, at table row `n` and edge `p` of the block: the edge's weight where `n` is the
    edge's source index, zero elsewhere. -/
theorem indicator1_apply (x0 : IVec S1x256 32) (x1 : FVec Ideal S1x256 .f32) (n : Fin 40960) (p : Fin 256) :
    (select (cmpi .eq (broadcastTo S40960x256 (iota .tc S40960x1 32 [0] iota_S40960x1_d0_w32) broadcasts_S40960x1_S40960x256)
          (broadcastTo S40960x256 x0 broadcasts_S1x256_S40960x256))
        (broadcastTo S40960x256 x1 broadcasts_S1x256_S40960x256)
        (broadcast S40960x256 (Scalar.ofBits (F := Ideal) .f32 0x00000000#32)) : FVec Ideal S40960x256 .f32) (ix2 n p)
      = if BitVec.ofNat 32 n.val = x0 (ix2 0 p) then x1 (ix2 0 p) else 0 := by
  rw [select_apply]
  show Scalar.select (IntOp.cmpi .eq (broadcastTo S40960x256 (iota .tc S40960x1 32 [0] iota_S40960x1_d0_w32) broadcasts_S40960x1_S40960x256 (ix2 n p))
      (broadcastTo S40960x256 x0 broadcasts_S1x256_S40960x256 (ix2 n p)))
    (broadcastTo S40960x256 x1 broadcasts_S1x256_S40960x256 (ix2 n p)) (Scalar.ofBits (F := Ideal) .f32 0x00000000#32) = _
  rw [broadcastTo_a1_ab_apply, broadcastTo_1b_ab_apply, broadcastTo_1b_ab_apply, iota_single_apply, select_cmpi_eq]
  show (if BitVec.ofNat 32 n.val = x0 (ix2 0 p) then x1 (ix2 0 p) else Ideal.ofBits .f32 0x00000000#32) = _
  rw [Ideal.ofBits_zero_f32]

/-- The payload at edge `p` and column `q`: the sum over the table's rows `n` of the weighted indicator at `(n, p)` times
    the table's entry `(n, q)`; the product contracts the row axis of both operands. -/
theorem pay1_apply (x0 : IVec S1x256 32) (x1 : FVec Ideal S1x256 .f32) (x2 : FVec Ideal S40960x128 .bf16) (p : Fin 256) (q : Fin 128) :
    k1_pay1 (F := Ideal) x0 x1 x2 (ix2 p q)
      = ∑ n : Fin 40960, (if BitVec.ofNat 32 n.val = x0 (ix2 0 p) then x1 (ix2 0 p) else 0) * x2 (ix2 n q) := by
  unfold k1_pay1
  dsimp only
  simp only [shapeCast_self]
  rw [truncf_apply]
  simp only [matmul]
  rw [Ideal.matmul_constant_zero_apply,
    ← Equiv.sum_comp (contrEquiv1 dot_S40960x256_S40960x128_S256x128_0_0_1_1_n_n 40960 rfl rfl).symm]
  refine Finset.sum_congr rfl fun n _ => ?_
  have hn := contrEquiv1_symm_val dot_S40960x256_S40960x128_S256x128_0_0_1_1_n_n 40960 rfl rfl n
  have el : dot_S40960x256_S40960x128_S256x128_0_0_1_1_n_n.lhsIdx (ix2 p q)
      ((contrEquiv1 dot_S40960x256_S40960x128_S256x128_0_0_1_1_n_n 40960 rfl rfl).symm n) = ix2 n p := funext fun a => Fin.ext (by
    match a with
    | ⟨0, _⟩ => exact (lhs_gather1_0 _ _).trans hn
    | ⟨1, _⟩ => exact lhs_gather1_1 _ _)
  have er : dot_S40960x256_S40960x128_S256x128_0_0_1_1_n_n.rhsIdx (ix2 p q)
      ((contrEquiv1 dot_S40960x256_S40960x128_S256x128_0_0_1_1_n_n 40960 rfl rfl).symm n) = ix2 n q := funext fun a => Fin.ext (by
    match a with
    | ⟨0, _⟩ => exact (rhs_gather1_0 _ _).trans hn
    | ⟨1, _⟩ => exact rhs_gather1_1 _ _)
  rw [el, er, truncf_apply, indicator1_apply]

/-- If the index row and the weight row of the block are edge `e`'s entries at position `i 0` and the table block is `M` on
    column `i 1`, the payload at `i` is the specification's gather at `(e, i 1)`. -/
theorem block1_value (x0 : IVec S1x256 32) (x1 : FVec Ideal S1x256 .f32) (x2 : FVec Ideal S40960x128 .bf16)
    (src : Fin 640000 → BitVec 32) (nrm : Fin 640000 → EReal) (M : (Sr 40960).Idx → EReal)
    (i : S256x128.Idx) (e : Fin 640000)
    (h0 : x0 (ix2 0 (i 0)) = src e) (h1 : x1 (ix2 0 (i 0)) = nrm e) (h2 : ∀ n : Fin 40960, x2 (ix2 n (i 1)) = M (ix2 n (i 1))) :
    k1_pay1 (F := Ideal) x0 x1 x2 i = gaK src nrm M (ix2 e (i 1)) := by
  obtain ⟨p, q, rfl⟩ : ∃ (p : Fin 256) (q : Fin 128), i = ix2 p q := ⟨i 0, i 1, eq_ix2 i⟩
  rw [pay1_apply]
  unfold gaK
  refine Finset.sum_congr rfl fun n _ => ?_
  have a0 : x0 (ix2 0 p) = src e := h0
  have a1 : x1 (ix2 0 p) = nrm e := h1
  have a2 : x2 (ix2 n q) = M (ix2 n q) := h2 n
  rw [a0, a1, a2]

theorem zeros1 : (![0, 0] : Fin 2 → Nat) = fun _ => 0 := funext fun a => by fin_cases a <;> rfl

end Cert.KernelIdeal.Hand

end
-- ==== Proof.KI.Val1.lean ====
import proofs.«425587_j43765716746405_1_alg».proof.Proof.KI.R1
import proofs.«425587_j43765716746405_1_alg».proof.Proof.KI.P1

noncomputable section

open scoped BigOperators

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The printed index maps over the grid: at point `t` the index row and the weight row are at block `(0, t)`, the table at
    block `(0, 0)`, the output at block `(t, 0)`. -/
theorem index_facts1 : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

abbrev src1 (c : Dev nD) : Fin 640000 → BitVec 32 := fun e => (V c main_v28 : S1x640000.Idx → BitVec 32) (ix2 0 e)
abbrev nrm1 (c : Dev nD) : Fin 640000 → EReal := fun e => (V c main_v30 : S1x640000.Idx → EReal) (ix2 0 e)
abbrev tab1 (c : Dev nD) : (Sr 40960).Idx → EReal := (V c main_v34 : S40960x128.Idx → EReal)

theorem read_blk1_3 (G : S640000x128.Idx → EReal) (t : Fin cfg1.N) (j : S256x128.Idx) (e : Fin 640000) (q : Fin 128)
    (he : e.val = win1_3.index t (0 : Fin 2) * 256 + (j 0).val) (hq : q.val = win1_3.index t (1 : Fin 2) * 128 + (j 1).val) :
    ((cfg1.win 3).blk t).view.read (Elt Ideal) G j = G (ix2 e q) := by
  show G (((cfg1.win 3).blk t).view.emb j) = G (ix2 e q)
  refine congrArg G (funext fun a => Fin.ext ?_)
  match a with
  | ⟨0, _⟩ => show win1_3.index t (0 : Fin 2) * 256 + 1 * (j 0).val = e.val; omega
  | ⟨1, _⟩ => show win1_3.index t (1 : Fin 2) * 128 + 1 * (j 1).val = q.val; omega

/-- Point `t`'s output block is block `t` of the specification's gather of the region's input arrays. -/
theorem flushed1_3 (c : Dev nD) (t : Fin cfg1.N) :
    (dat1 (F := Ideal) V c).flushed 3 t
      = ((cfg1.win 3).blk t).view.read (Elt Ideal) (gaK (src1 V c) (nrm1 V c) (tab1 V c)) := by
  show (cfg1.win 3).cut (grid1.coords t) ((dat1 (F := Ideal) V c).after 3 t) = _
  rw [after1_3]
  unfold out1_3
  rw [View.canon_unit_zero zeros1]
  simp only [View.ld_unit_zero (S := S1x256) zeros1, View.ld_unit_zero (S := S40960x128) zeros1]
  obtain ⟨e00, e01, e10, e11, e20, e21, e30, e31⟩ := index_facts1 t
  have hN : grid1.N = 2500 := N_1
  have ht : t.val < 2500 := hN ▸ t.isLt
  funext j
  have hj0 : (j 0).val < 256 := (j 0).isLt
  have hj1 : (j 1).val < 128 := (j 1).isLt
  refine (block1_value (iblk1 V c 0 t) (iblk1 V c 1 t) (iblk1 V c 2 t) (src1 V c) (nrm1 V c) (tab1 V c)
    ((cfg1.win 3).xinj (grid1.coords t) j) ⟨t.val * 256 + (j 0).val, by omega⟩ ?_ ?_ ?_).trans ?_
  · show (V c main_v28 : S1x640000.Idx → BitVec 32) (((cfg1.win 0).blk t).view.emb (ix2 0 ⟨(j 0).val, hj0⟩))
      = (V c main_v28 : S1x640000.Idx → BitVec 32) (ix2 0 ⟨t.val * 256 + (j 0).val, by omega⟩)
    refine congrArg _ (funext fun a => Fin.ext ?_)
    match a with
    | ⟨0, _⟩ => show win1_0.index t (0 : Fin 2) * 1 + 1 * 0 = 0; omega
    | ⟨1, _⟩ => show win1_0.index t (1 : Fin 2) * 256 + 1 * (j 0).val = t.val * 256 + (j 0).val; omega
  · show (V c main_v30 : S1x640000.Idx → EReal) (((cfg1.win 1).blk t).view.emb (ix2 0 ⟨(j 0).val, hj0⟩))
      = (V c main_v30 : S1x640000.Idx → EReal) (ix2 0 ⟨t.val * 256 + (j 0).val, by omega⟩)
    refine congrArg _ (funext fun a => Fin.ext ?_)
    match a with
    | ⟨0, _⟩ => show win1_1.index t (0 : Fin 2) * 1 + 1 * 0 = 0; omega
    | ⟨1, _⟩ => show win1_1.index t (1 : Fin 2) * 256 + 1 * (j 0).val = t.val * 256 + (j 0).val; omega
  · intro n
    show (V c main_v34 : S40960x128.Idx → EReal) (((cfg1.win 2).blk t).view.emb (ix2 n ⟨(j 1).val, hj1⟩))
      = (V c main_v34 : S40960x128.Idx → EReal) (ix2 n ⟨(j 1).val, hj1⟩)
    refine congrArg _ (funext fun a => Fin.ext ?_)
    match a with
    | ⟨0, _⟩ => show win1_2.index t (0 : Fin 2) * 40960 + 1 * n.val = n.val; omega
    | ⟨1, _⟩ => show win1_2.index t (1 : Fin 2) * 128 + 1 * (j 1).val = (j 1).val; omega
  · exact (read_blk1_3 (gaK (src1 V c) (nrm1 V c) (tab1 V c)) t j ⟨t.val * 256 + (j 0).val, by omega⟩ ⟨(j 1).val, hj1⟩
      (by show t.val * 256 + (j 0).val = _; omega) (by show (j 1).val = _; omega)).symm

theorem mem_blk1_3 (t : Fin cfg1.N) (i : S640000x128.Idx) :
    i ∈ ((cfg1.win 3).blk t).view.set
      ↔ ∀ a : Fin 2, win1_3.index t a * S256x128.size a ≤ (i a).val ∧ (i a).val < win1_3.index t a * S256x128.size a + S256x128.size a := by
  show i ∈ ((View.whole main_v35).slice (win1_3.rect t)).set ↔ _
  rw [View.set_slice_whole, Rect.mem_set_unit]
  exact Iff.rfl

/-- Row `r` lies in the block of point `r / 256`. -/
theorem cover1_arr (i : S640000x128.Idx) :
    ∃ t : Fin cfg1.N, (cfg1.win 3).flush t = true ∧ i ∈ ((cfg1.win 3).blk t).view.set := by
  have hi0 : (i 0).val < 640000 := (i 0).isLt
  have hi1 : (i 1).val < 128 := (i 1).isLt
  have hN : grid1.N = 2500 := N_1
  refine ⟨⟨(i 0).val / 256, by show (i 0).val / 256 < grid1.N; omega⟩, flush1_3 _, ?_⟩
  rw [mem_blk1_3]
  obtain ⟨-, -, -, -, -, -, e30, e31⟩ := index_facts1 ⟨(i 0).val / 256, by show (i 0).val / 256 < grid1.N; omega⟩
  intro a
  match a with
  | ⟨0, _⟩ =>
    show win1_3.index _ (0 : Fin 2) * 256 ≤ (i 0).val ∧ (i 0).val < win1_3.index _ (0 : Fin 2) * 256 + 256
    rw [e30]; show (i 0).val / 256 * 256 ≤ (i 0).val ∧ (i 0).val < (i 0).val / 256 * 256 + 256; omega
  | ⟨1, _⟩ =>
    show win1_3.index _ (1 : Fin 2) * 128 ≤ (i 1).val ∧ (i 1).val < win1_3.index _ (1 : Fin 2) * 128 + 128
    rw [e31]; omega

/-- After the region its output array holds, at edge `e` and column `d`, the sum over the table rows `n` of (the edge's weight
    where `n` is the edge's source index, zero elsewhere) times the table's entry `(n, d)`. -/
theorem arrAt1_3 (c : Dev nD) :
    (dat1 (F := Ideal) V c).arrAt 3 cfg1.N
      = Cert.Spec.gaK (fun e => V c main_v28 (ix2 0 e)) (fun e => V c main_v30 (ix2 0 e)) (V c main_v34) :=
  (dat1 (F := Ideal) V c).arrAt_eq_of_cover 3 (gaK (src1 V c) (nrm1 V c) (tab1 V c))
    (fun t _ => flushed1_3 V c t) cover1_arr

end Cert.KernelIdeal.Hand

end
-- ==== Proof.KI.P2.lean ====
import proofs.«425587_j43765716746405_1_alg».proof.Proof.Gen.KernelIdeal.Skeleton
import proofs.«425587_j43765716746405_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

namespace Pay2

theorem pay1_apply (i : S2048x128.Idx) : k2_pay1 (F := Ideal) i = 0 := by
  unfold k2_pay1
  rw [shapeCast_self]
  exact Ideal.ofBits_zero_f32

theorem pay3_apply (acc : Vec Ideal S2048x128 .f32) (bias : Vec Ideal S1x128 .f32) (r : Fin 2048) (d : Fin 128) :
    k2_pay3 (F := Ideal) acc bias (ix2 r d) = acc (ix2 r d) + bias (ix2 (0 : Fin 1) d) := by
  unfold k2_pay3
  rw [shapeCast_self]
  show acc (ix2 r d) + broadcastTo S2048x128 bias broadcasts_S1x128_S2048x128 (ix2 r d) = _
  rw [broadcastTo_apply bias broadcasts_S1x128_S2048x128 (ix2 r d) (ix2 (0 : Fin 1) d) (fun a => by
    match a with
    | ⟨0, _⟩ => rfl
    | ⟨1, _⟩ => rfl)]

/-- A compared pair of words, widened and converted: one where they are equal, zero where not. -/
theorem indicator_eq (a b : BitVec 32) :
    FloatOps.sitofp (F := Ideal) .f32 ((IntOp.cmpi .eq a b).setWidth 32) = if a = b then (1 : EReal) else 0 := by
  unfold IntOp.cmpi
  by_cases h : a = b
  · subst h
    rw [if_pos rfl]
    show (((((BitVec.ofBool (a == a)).setWidth 32).toInt : ℤ) : ℝ) : EReal) = 1
    simp
  · rw [if_neg h]
    show (((((BitVec.ofBool (a == b)).setWidth 32).toInt : ℤ) : ℝ) : EReal) = 0
    have : (a == b) = false := by simpa using h
    rw [this]
    simp

theorem lhs_k2_0 (i : S2048x128.Idx) (q : dot_S2048x5120_S5120x128_S2048x128_1_0_0_1_n_n.contr.Idx) :
    (dot_S2048x5120_S5120x128_S2048x128_1_0_0_1_n_n.lhsIdx i q 0).val = (i 0).val := by
  unfold DotDims.lhsIdx
  rw [dif_neg (show ¬(0 : Fin S2048x5120.rank) ∈ dot_S2048x5120_S5120x128_S2048x128_1_0_0_1_n_n.lhsBatch by decide), dif_pos (show (0 : Fin S2048x5120.rank) ∈ dot_S2048x5120_S5120x128_S2048x128_1_0_0_1_n_n.lhsNonContracting by decide)]
  rfl
theorem lhs_k2_1 (i : S2048x128.Idx) (q : dot_S2048x5120_S5120x128_S2048x128_1_0_0_1_n_n.contr.Idx) :
    (dot_S2048x5120_S5120x128_S2048x128_1_0_0_1_n_n.lhsIdx i q 1).val = (q ⟨0, by decide⟩).val :=
  dot_S2048x5120_S5120x128_S2048x128_1_0_0_1_n_n.lhsIdx_val_of_single rfl i q
theorem rhs_k2_0 (i : S2048x128.Idx) (q : dot_S2048x5120_S5120x128_S2048x128_1_0_0_1_n_n.contr.Idx) :
    (dot_S2048x5120_S5120x128_S2048x128_1_0_0_1_n_n.rhsIdx i q 0).val = (q ⟨0, by decide⟩).val :=
  dot_S2048x5120_S5120x128_S2048x128_1_0_0_1_n_n.rhsIdx_val_of_single rfl i q
theorem rhs_k2_1 (i : S2048x128.Idx) (q : dot_S2048x5120_S5120x128_S2048x128_1_0_0_1_n_n.contr.Idx) :
    (dot_S2048x5120_S5120x128_S2048x128_1_0_0_1_n_n.rhsIdx i q 1).val = (i 1).val := by
  unfold DotDims.rhsIdx
  rw [dif_neg (show ¬(1 : Fin S5120x128.rank) ∈ dot_S2048x5120_S5120x128_S2048x128_1_0_0_1_n_n.rhsBatch by decide), dif_pos (show (1 : Fin S5120x128.rank) ∈ dot_S2048x5120_S5120x128_S2048x128_1_0_0_1_n_n.rhsNonContracting by decide)]
  rfl

theorem matmul_k2_apply (l : FVec Ideal S2048x5120 .bf16) (m : FVec Ideal S5120x128 .bf16) (r : Fin 2048) (d : Fin 128) :
    matmul (F := Ideal) dot_S2048x5120_S5120x128_S2048x128_1_0_0_1_n_n none l m (constant (F := Ideal) S2048x128 .f32 0x00000000#32) (ix2 r d)
      = ∑ k : Fin 5120, l (ix2 r k) * m (ix2 k d) := by
  show FloatOps.matmul dot_S2048x5120_S5120x128_S2048x128_1_0_0_1_n_n none l m (constant S2048x128 .f32 0x00000000#32) (ix2 r d) = _
  rw [Ideal.matmul_constant_zero_apply, ← Equiv.sum_comp (ValueIdx.contrEquiv1 dot_S2048x5120_S5120x128_S2048x128_1_0_0_1_n_n 5120 rfl rfl).symm]
  refine Finset.sum_congr rfl fun k _ => ?_
  have hk := ValueIdx.contrEquiv1_symm_val dot_S2048x5120_S5120x128_S2048x128_1_0_0_1_n_n 5120 rfl rfl k
  have el : dot_S2048x5120_S5120x128_S2048x128_1_0_0_1_n_n.lhsIdx (ix2 r d) ((ValueIdx.contrEquiv1 dot_S2048x5120_S5120x128_S2048x128_1_0_0_1_n_n 5120 rfl rfl).symm k) = ix2 r k := funext fun a => Fin.ext (by
    match a with
    | ⟨0, _⟩ => exact lhs_k2_0 _ _
    | ⟨1, _⟩ => exact (lhs_k2_1 _ _).trans hk)
  have er : dot_S2048x5120_S5120x128_S2048x128_1_0_0_1_n_n.rhsIdx (ix2 r d) ((ValueIdx.contrEquiv1 dot_S2048x5120_S5120x128_S2048x128_1_0_0_1_n_n 5120 rfl rfl).symm k) = ix2 k d := funext fun a => Fin.ext (by
    match a with
    | ⟨0, _⟩ => exact (rhs_k2_0 _ _).trans hk
    | ⟨1, _⟩ => exact rhs_k2_1 _ _)
  rw [el, er]

/-- The accumulating step at `(r, d)`: the accumulator plus, over the block's 5120 edges, the message entry of each edge
    whose destination word is the word of row `2048 nb + r`. -/
theorem pay2_apply (i : grid2.Coords) (dstB : Vec Ideal S1x5120 .i32) (msgB : Vec Ideal S5120x128 .bf16) (acc : Vec Ideal S2048x128 .f32)
    (r : Fin 2048) (d : Fin 128) :
    k2_pay2 (F := Ideal) i dstB msgB acc (ix2 r d)
      = acc (ix2 r d) + ∑ k : Fin 5120,
          (if BitVec.ofNat 32 ((i 0).val * 2048 + r.val) = dstB (ix2 (0 : Fin 1) k) then (1 : EReal) else 0) * msgB (ix2 k d) := by
  unfold k2_pay2
  simp only [shapeCast_self]
  rw [addf_apply, matmul_k2_apply]
  refine congrArg (fun s => acc (ix2 r d) + s) (Finset.sum_congr rfl fun k _ => ?_)
  refine congrArg (fun s => s * msgB (ix2 k d)) ?_
  rw [truncf_apply]
  show FloatOps.sitofp (F := Ideal) .f32 ((IntOp.cmpi .eq
      (broadcastTo S2048x5120 (addi (broadcast S2048x1 (Scalar.muli (BitVec.ofNat 32 (i 0).val) 2048#32)) (iota .tc S2048x1 32 [0] iota_S2048x1_d0_w32)) broadcasts_S2048x1_S2048x5120 (ix2 r k))
      (broadcastTo S2048x5120 dstB broadcasts_S1x5120_S2048x5120 (ix2 r k))).setWidth 32) = _
  rw [broadcastTo_apply _ broadcasts_S2048x1_S2048x5120 (ix2 r k) (ix2 r (0 : Fin 1)) (fun a => by
      match a with
      | ⟨0, _⟩ => rfl
      | ⟨1, _⟩ => rfl),
    broadcastTo_apply dstB broadcasts_S1x5120_S2048x5120 (ix2 r k) (ix2 (0 : Fin 1) k) (fun a => by
      match a with
      | ⟨0, _⟩ => rfl
      | ⟨1, _⟩ => rfl)]
  rw [indicator_eq]
  show (if (Scalar.muli (BitVec.ofNat 32 (i 0).val) 2048#32 + iota .tc S2048x1 32 [0] iota_S2048x1_d0_w32 (ix2 r (0 : Fin 1))) = dstB (ix2 (0 : Fin 1) k) then (1 : EReal) else 0) = _
  rw [iota_single_apply]
  have hw : Scalar.muli (BitVec.ofNat 32 (i 0).val) 2048#32 + BitVec.ofNat 32 ((ix2 r (0 : Fin 1) : S2048x1.Idx) 0).val
      = BitVec.ofNat 32 ((i 0).val * 2048 + r.val) := by
    show BitVec.ofNat 32 (i 0).val * BitVec.ofNat 32 2048 + BitVec.ofNat 32 r.val = _
    rw [← BitVec.ofNat_mul, ← BitVec.ofNat_add]
  rw [hw]

/-- Edge `5120 s + k` of the 640000, from its block `s` and its place `k` in the block. -/
abbrev edgeOf (s : ℕ) (hs : s < 125) (k : Fin 5120) : Fin 640000 := ⟨5120 * s + k.val, by have := k.isLt; omega⟩

/-- A sum over the 125 blocks of the sums over each block's 5120 edges is the sum over all the edges. -/
theorem sum_blocks {M : Type*} [AddCommMonoid M] (f : Fin 640000 → M) :
    ∑ s : Fin 125, ∑ k : Fin 5120, f (edgeOf s.val s.isLt k) = ∑ e : Fin 640000, f e := by
  rw [← Fintype.sum_prod_type']
  exact Fintype.sum_equiv (finProdFinEquiv : Fin 125 × Fin 5120 ≃ Fin (125 * 5120)) _ f (fun p => congrArg f (Fin.ext (by
    show 5120 * p.1.val + p.2.val = p.2.val + 5120 * p.1.val
    omega)))

theorem scK_apply (dst : Fin 640000 → BitVec 32) (Msg : (Sr 640000).Idx → EReal) (b : Fin 128 → EReal) (n : Fin 40960) (d : Fin 128) :
    scK dst Msg b (ix2 n d)
      = (∑ e : Fin 640000, (if BitVec.ofNat 32 n.val = dst e then (1 : EReal) else 0) * Msg (ix2 e d)) + b d := rfl

end Pay2

end Cert.KernelIdeal.Hand

end
-- ==== Proof.KI.Val2.lean ====
import proofs.«425587_j43765716746405_1_alg».proof.Proof.KI.R2
import proofs.«425587_j43765716746405_1_alg».proof.Proof.KI.P2

noncomputable section

open scoped BigOperators

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

namespace Val2

open Pay2

/-- Point `t` is row block `t / 125`, edge block `t % 125`; the destination row and the messages move with the edge block,
    the bias row stays, the output moves with the row block. -/
theorem idx_facts2 : ∀ t : Fin cfg2.N,
    (grid2.coords t 0).val = t.val / 125 ∧ (grid2.coords t 1).val = t.val % 125
    ∧ win2_0.index t (0 : Fin 2) = 0 ∧ win2_0.index t (1 : Fin 2) = t.val % 125
    ∧ win2_1.index t (0 : Fin 2) = t.val % 125 ∧ win2_1.index t (1 : Fin 2) = 0
    ∧ win2_2.index t (0 : Fin 2) = 0 ∧ win2_2.index t (1 : Fin 2) = 0
    ∧ win2_3.index t (0 : Fin 2) = t.val / 125 ∧ win2_3.index t (1 : Fin 2) = 0 :=
  (by decide +kernel : ∀ t : Fin grid2.N, _)

theorem N2 : cfg2.N = 2500 := N_2

section Value
variable (V : (c : Dev nD) → (b : Ref sig .tc) → Buf (Elt Ideal) ((c : Thread nD τ).loc b))

theorem iblk2_0_apply (c : Dev nD) (t : Fin cfg2.N) (k : Fin 5120) :
    (iblk2 (F := Ideal) V c 0 t : Vec Ideal S1x5120 .i32) (ix2 (0 : Fin 1) k)
      = (V c main_v29 : S1x640000.Idx → BitVec 32) (ix2 (0 : Fin 1) (edgeOf (t.val % 125) (Nat.mod_lt _ (by decide)) k)) := by
  obtain ⟨-, -, e0, e1, -⟩ := idx_facts2 t
  unfold iblk2
  rw [View.read_apply]
  show V c main_v29 _ = V c main_v29 _
  refine congrArg (V c main_v29) (funext fun a => Fin.ext ?_)
  match a with
  | ⟨0, _⟩ => show win2_0.index t (0 : Fin 2) * 1 + 1 * 0 = 0; rw [e0]
  | ⟨1, _⟩ => show win2_0.index t (1 : Fin 2) * 5120 + 1 * k.val = 5120 * (t.val % 125) + k.val; rw [e1]; omega

theorem iblk2_1_apply (c : Dev nD) (t : Fin cfg2.N) (k : Fin 5120) (d : Fin 128) :
    (iblk2 (F := Ideal) V c 1 t : Vec Ideal S5120x128 .bf16) (ix2 k d)
      = (V c main_v35 : S640000x128.Idx → EReal) (ix2 (edgeOf (t.val % 125) (Nat.mod_lt _ (by decide)) k) d) := by
  obtain ⟨-, -, -, -, e0, e1, -⟩ := idx_facts2 t
  unfold iblk2
  rw [View.read_apply]
  show V c main_v35 _ = V c main_v35 _
  refine congrArg (V c main_v35) (funext fun a => Fin.ext ?_)
  match a with
  | ⟨0, _⟩ => show win2_1.index t (0 : Fin 2) * 5120 + 1 * k.val = 5120 * (t.val % 125) + k.val; rw [e0]; omega
  | ⟨1, _⟩ => show win2_1.index t (1 : Fin 2) * 128 + 1 * d.val = d.val; rw [e1]; omega

theorem iblk2_2_apply (c : Dev nD) (t : Fin cfg2.N) (d : Fin 128) :
    (iblk2 (F := Ideal) V c 2 t : Vec Ideal S1x128 .f32) (ix2 (0 : Fin 1) d)
      = (V c main_v38 : S1x128.Idx → EReal) (ix2 (0 : Fin 1) d) := by
  obtain ⟨-, -, -, -, -, -, e0, e1, -⟩ := idx_facts2 t
  unfold iblk2
  rw [View.read_apply]
  show V c main_v38 _ = V c main_v38 _
  refine congrArg (V c main_v38) (funext fun a => Fin.ext ?_)
  match a with
  | ⟨0, _⟩ => show win2_2.index t (0 : Fin 2) * 1 + 1 * 0 = 0; rw [e0]
  | ⟨1, _⟩ => show win2_2.index t (1 : Fin 2) * 128 + 1 * d.val = d.val; rw [e1]; omega
end Value

section Value2
variable (V : (c : Dev nD) → (b : Ref sig .tc) → Buf (Elt Ideal) ((c : Thread nD τ).loc b))

/-- What point `n` adds to the accumulator at `(r, d)`: over its block's 5120 edges, the message entry of each edge whose
    destination word is the word of the point's row (zero past the grid). -/
def addend2 (c : Dev nD) (n : ℕ) : S2048x128.Idx → EReal := fun i =>
  if h : n < cfg2.N then
    ∑ k : Fin 5120,
      (if BitVec.ofNat 32 ((grid2.coords ⟨n, h⟩ 0).val * 2048 + (i 0).val)
          = (iblk2 (F := Ideal) V c 0 ⟨n, h⟩ : Vec Ideal S1x5120 .i32) (ix2 (0 : Fin 1) k) then (1 : EReal) else 0)
        * (iblk2 (F := Ideal) V c 1 ⟨n, h⟩ : Vec Ideal S5120x128 .bf16) (ix2 k (i 1))
  else 0

theorem step2_apply (c : Dev nD) (n : ℕ) (h : n < cfg2.N) (acc : Vec Ideal S2048x128 .f32) (i : S2048x128.Idx) :
    k2_pay2 (F := Ideal) (grid2.coords ⟨n, h⟩) (iblk2 (F := Ideal) V c 0 ⟨n, h⟩) (iblk2 (F := Ideal) V c 1 ⟨n, h⟩) acc i
      = acc i + addend2 V c n i := by
  obtain ⟨r, d, rfl⟩ : ∃ (r : Fin 2048) (d : Fin 128), i = ix2 r d := ⟨i 0, i 1, eq_ix2 i⟩
  rw [pay2_apply]
  unfold addend2
  rw [dif_pos h]

theorem accAt2_last (c : Dev nD) (t : Fin cfg2.N) (ht : t.val % 125 = 124) (i : S2048x128.Idx) :
    accAt2 (F := Ideal) V c t.val t.isLt i = 0 + ∑ s ∈ Finset.range 125, addend2 V c (125 * (t.val / 125) + s) i := by
  have hN : cfg2.N = 2500 := N2
  have hlt : t.val < 2500 := hN ▸ t.isLt
  have h' : 125 * (t.val / 125) + t.val % 125 < cfg2.N := by rw [Nat.div_add_mod]; exact t.isLt
  have e1 := Pipeline.eq_accAt_of_mod (N := cfg2.N) (fun n h => accAt2 (F := Ideal) V c n h) 125
    (fun n h => k2_pay2 (F := Ideal) (grid2.coords ⟨n, h⟩) (iblk2 (F := Ideal) V c 0 ⟨n, h⟩) (iblk2 (F := Ideal) V c 1 ⟨n, h⟩) (k2_pay1 (F := Ideal)))
    (fun n h acc => k2_pay2 (F := Ideal) (grid2.coords ⟨n, h⟩) (iblk2 (F := Ideal) V c 0 ⟨n, h⟩) (iblk2 (F := Ideal) V c 1 ⟨n, h⟩) acc)
    (fun n h hm => accAt2_first V c ⟨n, h⟩ hm)
    (fun n h hm => accAt2_next V c ⟨n + 1, h⟩ hm)
    (by decide) t.val t.isLt h'
  rw [e1]
  have e2 := Pipeline.accAt_add_apply (N := cfg2.N)
    (fun n h => k2_pay2 (F := Ideal) (grid2.coords ⟨n, h⟩) (iblk2 (F := Ideal) V c 0 ⟨n, h⟩) (iblk2 (F := Ideal) V c 1 ⟨n, h⟩) (k2_pay1 (F := Ideal)))
    (fun n h acc => k2_pay2 (F := Ideal) (grid2.coords ⟨n, h⟩) (iblk2 (F := Ideal) V c 0 ⟨n, h⟩) (iblk2 (F := Ideal) V c 1 ⟨n, h⟩) acc)
    (fun _ => (0 : EReal)) (fun n => addend2 V c n) (125 * (t.val / 125)) 124
    (fun h j => by rw [step2_apply, pay1_apply])
    (fun n h acc j _ _ => step2_apply V c n h acc j)
    (t.val % 125) (by omega) h' i
  rw [e2, ht]

theorem addend2_apply (c : Dev nD) (q : ℕ) (hq : q < 20) (s : Fin 125) (r : Fin 2048) (d : Fin 128) :
    addend2 V c (125 * q + s.val) (ix2 r d)
      = ∑ k : Fin 5120,
          (if BitVec.ofNat 32 (2048 * q + r.val) = (V c main_v29 : S1x640000.Idx → BitVec 32) (ix2 (0 : Fin 1) (edgeOf s.val s.isLt k))
            then (1 : EReal) else 0)
          * (V c main_v35 : S640000x128.Idx → EReal) (ix2 (edgeOf s.val s.isLt k) d) := by
  have hN : cfg2.N = 2500 := N2
  have hs := s.isLt
  have h : 125 * q + s.val < cfg2.N := by rw [hN]; omega
  unfold addend2
  rw [dif_pos h]
  obtain ⟨c0, -⟩ := idx_facts2 ⟨125 * q + s.val, h⟩
  have hdiv : (125 * q + s.val) / 125 = q := by omega
  have hmod : (125 * q + s.val) % 125 = s.val := by omega
  refine Finset.sum_congr rfl fun k _ => ?_
  rw [iblk2_0_apply, iblk2_1_apply, c0]
  have he : edgeOf ((⟨125 * q + s.val, h⟩ : Fin cfg2.N).val % 125) (Nat.mod_lt _ (by decide)) k = edgeOf s.val s.isLt k :=
    Fin.ext (by show 5120 * ((125 * q + s.val) % 125) + k.val = 5120 * s.val + k.val; rw [hmod])
  rw [he]
  show (if BitVec.ofNat 32 ((125 * q + s.val) / 125 * 2048 + r.val) = _ then (1 : EReal) else 0) * _ = _
  rw [hdiv, Nat.mul_comm q 2048]

/-- At a row block's last point the accumulator holds, at `(r, d)`, the sum over all the edges of the message entries of
    those whose destination word is the word of row `2048 (t / 125) + r`: 125 blocks of 5120 edges make the 640000. -/
theorem accAt2_last_apply (c : Dev nD) (t : Fin cfg2.N) (ht : t.val % 125 = 124) (r : Fin 2048) (d : Fin 128) :
    accAt2 (F := Ideal) V c t.val t.isLt (ix2 r d)
      = ∑ e : Fin 640000,
          (if BitVec.ofNat 32 (2048 * (t.val / 125) + r.val) = (V c main_v29 : S1x640000.Idx → BitVec 32) (ix2 (0 : Fin 1) e)
            then (1 : EReal) else 0)
          * (V c main_v35 : S640000x128.Idx → EReal) (ix2 e d) := by
  have hN : cfg2.N = 2500 := N2
  have hlt : t.val < 2500 := hN ▸ t.isLt
  have hq : t.val / 125 < 20 := by omega
  rw [accAt2_last V c t ht, zero_add, Finset.sum_range (fun s => addend2 V c (125 * (t.val / 125) + s) (ix2 r d)),
    ← sum_blocks (fun e : Fin 640000 =>
      (if BitVec.ofNat 32 (2048 * (t.val / 125) + r.val) = (V c main_v29 : S1x640000.Idx → BitVec 32) (ix2 (0 : Fin 1) e)
        then (1 : EReal) else 0) * (V c main_v35 : S640000x128.Idx → EReal) (ix2 e d))]
  exact Finset.sum_congr rfl fun s _ => addend2_apply V c (t.val / 125) hq s r d

abbrev G2 (c : Dev nD) : (Sr 40960).Idx → EReal :=
  scK (fun e => (V c main_v29 : S1x640000.Idx → BitVec 32) (ix2 (0 : Fin 1) e)) (V c main_v35 : S640000x128.Idx → EReal)
    (fun d => (V c main_v38 : S1x128.Idx → EReal) (ix2 (0 : Fin 1) d))

abbrev rowOf (t : Fin cfg2.N) (r : Fin 2048) : Fin 40960 :=
  ⟨2048 * (t.val / 125) + r.val, by have h : t.val < 2500 := N2 ▸ t.isLt; have := r.isLt; omega⟩

theorem read_blk2_3 (G : S40960x128.Idx → EReal) (t : Fin cfg2.N) (r : Fin 2048) (d : Fin 128) :
    (((cfg2.win 3).blk t).view.read (Elt Ideal) G : S2048x128.Idx → EReal) (ix2 r d) = G (ix2 (rowOf t r) d) := by
  obtain ⟨-, -, -, -, -, -, -, -, e0, e1⟩ := idx_facts2 t
  rw [View.read_apply]
  show G _ = G _
  refine congrArg G (funext fun a => Fin.ext ?_)
  match a with
  | ⟨0, _⟩ => show win2_3.index t (0 : Fin 2) * 2048 + 1 * r.val = 2048 * (t.val / 125) + r.val; rw [e0]; omega
  | ⟨1, _⟩ => show win2_3.index t (1 : Fin 2) * 128 + 1 * d.val = d.val; rw [e1]; omega

theorem cut2_3_apply {α : Type} (t : Fin cfg2.N) (X : S2048x128.Idx → α) (r : Fin 2048) (d : Fin 128) :
    ((cfg2.win 3).cut (grid2.coords t) X : S2048x128.Idx → α) (ix2 r d) = X (ix2 r d) := rfl

/-- A row block's last point leaves, as its output block, its block of the specification's scatter. -/
theorem flushed2_eq (c : Dev nD) (t : Fin cfg2.N) (hf : (cfg2.win 3).flush t = true) :
    (dat2 (F := Ideal) V c).flushed 3 t = ((cfg2.win 3).blk t).view.read (Elt Ideal) (G2 V c) := by
  have ht : t.val % 125 = 124 := (flush2_3 t).mp hf
  show (cfg2.win 3).cut (grid2.coords t) ((dat2 (F := Ideal) V c).after 3 t) = _
  rw [after2_3]
  generalize hG : G2 V c = G
  funext j
  obtain ⟨r, d, rfl⟩ : ∃ (r : Fin 2048) (d : Fin 128), j = ix2 r d := ⟨j 0, j 1, eq_ix2 j⟩
  refine (cut2_3_apply t _ r d).trans (Eq.trans ?_ (read_blk2_3 G t r d).symm)
  rw [← hG, pay3_apply, accAt2_last_apply V c t ht, iblk2_2_apply]
  exact (scK_apply (fun e => (V c main_v29 : S1x640000.Idx → BitVec 32) (ix2 (0 : Fin 1) e)) (V c main_v35 : S640000x128.Idx → EReal)
    (fun d => (V c main_v38 : S1x128.Idx → EReal) (ix2 (0 : Fin 1) d)) (rowOf t r) d).symm

/-- Every row lies in the output block of some row block's last point. -/
theorem cover2 (i : S40960x128.Idx) :
    ∃ t : Fin cfg2.N, (cfg2.win 3).flush t = true ∧ i ∈ ((cfg2.win 3).blk t).view.set := by
  have hN : cfg2.N = 2500 := N2
  have hi0 : (i 0).val < 40960 := (i 0).isLt
  have hi1 : (i 1).val < 128 := (i 1).isLt
  have hb : 125 * ((i 0).val / 2048) + 124 < cfg2.N := by rw [hN]; omega
  have htm : (125 * ((i 0).val / 2048) + 124) % 125 = 124 := by omega
  have htd : (125 * ((i 0).val / 2048) + 124) / 125 = (i 0).val / 2048 := by omega
  obtain ⟨-, -, -, -, -, -, -, -, e0, e1⟩ := idx_facts2 ⟨125 * ((i 0).val / 2048) + 124, hb⟩
  refine ⟨⟨125 * ((i 0).val / 2048) + 124, hb⟩, (flush2_3 _).mpr htm, ?_⟩
  show i ∈ ((View.whole main_v39).slice (win2_3.rect ⟨125 * ((i 0).val / 2048) + 124, hb⟩)).set
  rw [View.set_slice_whole, Rect.mem_set_unit]
  intro a
  match a with
  | ⟨0, _⟩ =>
    show win2_3.index ⟨125 * ((i 0).val / 2048) + 124, hb⟩ (0 : Fin 2) * 2048 ≤ (i 0).val
      ∧ (i 0).val < win2_3.index ⟨125 * ((i 0).val / 2048) + 124, hb⟩ (0 : Fin 2) * 2048 + 2048
    rw [e0]
    show (125 * ((i 0).val / 2048) + 124) / 125 * 2048 ≤ (i 0).val ∧ (i 0).val < (125 * ((i 0).val / 2048) + 124) / 125 * 2048 + 2048
    rw [htd]; omega
  | ⟨1, _⟩ =>
    show win2_3.index ⟨125 * ((i 0).val / 2048) + 124, hb⟩ (1 : Fin 2) * 128 ≤ (i 1).val
      ∧ (i 1).val < win2_3.index ⟨125 * ((i 0).val / 2048) + 124, hb⟩ (1 : Fin 2) * 128 + 128
    rw [e1]; omega

end Value2

end Val2

variable (V : (c : Dev nD) → (b : Ref sig .tc) → Buf (Elt Ideal) ((c : Thread nD τ).loc b))

/-- After the region its output array holds, at padded row `n` and column `d`, the sum over all the edges of (one where the
    word of `n` is the edge's destination word, zero elsewhere) times the message entry `(e, d)`, plus the bias entry `d`. -/
theorem arrAt2_3 (c : Dev nD) :
    (dat2 (F := Ideal) V c).arrAt 3 cfg2.N
      = Cert.Spec.scK (fun e => (V c main_v29 : S1x640000.Idx → BitVec 32) (ix2 (0 : Fin 1) e)) (V c main_v35 : S640000x128.Idx → EReal)
          (fun d => (V c main_v38 : S1x128.Idx → EReal) (ix2 (0 : Fin 1) d)) :=
  (dat2 (F := Ideal) V c).arrAt_eq_of_cover 3 (Val2.G2 V c) (Val2.flushed2_eq V c) Val2.cover2

end Cert.KernelIdeal.Hand

end
-- ==== Proof.KI.Val3.lean ====
import proofs.«425587_j43765716746405_1_alg».proof.Proof.KI.R3
import proofs.«425587_j43765716746405_1_alg».proof.Proof.KI.P0

noncomputable section

open scoped BigOperators

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The printed index maps over the 20 points: the feature block and the output block are block `t` of their arrays' rows,
    the matrix is fetched whole. -/
theorem idx_rows3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Point `t`'s output block is block `t` of the product of the feature table with the matrix. -/
theorem flushed3_2_eq (c : Dev nD) (t : Fin cfg3.N) :
    (dat3 (F := Ideal) V c).flushed 2 t
      = ((cfg3.win 2).blk t).view.read (Elt Ideal) (mm (N := 40960) (V c main_v39) (V c main_v41)) := by
  show (cfg3.win 2).cut (grid3.coords t) ((dat3 (F := Ideal) V c).after 2 t) = _
  rw [after3_2]
  unfold out0_2
  rw [View.canon_unit_zero zero_offsets]
  simp only [View.ld_unit_zero (S := S2048x128) zero_offsets, View.ld_unit_zero (S := S128x128) zero_offsets]
  obtain ⟨e00, e01, e10, e11, e20, e21⟩ := idx_rows3 t
  funext j
  show k0_pay1 (F := Ideal) (iblk3 V c 0 t) (iblk3 V c 1 t) j
      = mm (N := 40960) (V c main_v39) (V c main_v41) (((cfg3.win 2).blk t).view.emb j)
  refine pay0_eq_mm (V c main_v39) (V c main_v41) (iblk3 V c 0 t) (iblk3 V c 1 t) (((cfg3.win 2).blk t).view.emb j) j
    (fun k => ?_) (fun k => ?_)
  · show V c main_v39 (((cfg3.win 0).blk t).view.emb (ix2 (j 0) k))
        = V c main_v39 (ix2 ((((cfg3.win 2).blk t).view.emb j) 0) k)
    refine congrArg (V c main_v39) (funext fun a => Fin.ext ?_)
    match a with
    | ⟨0, _⟩ => show win3_0.index t (0 : Fin 2) * 2048 + 1 * (j 0).val = win3_2.index t (0 : Fin 2) * 2048 + 1 * (j 0).val; omega
    | ⟨1, _⟩ => show win3_0.index t (1 : Fin 2) * 128 + 1 * k.val = k.val; omega
  · show V c main_v41 (((cfg3.win 1).blk t).view.emb (ix2 k (j 1)))
        = V c main_v41 (ix2 k ((((cfg3.win 2).blk t).view.emb j) 1))
    refine congrArg (V c main_v41) (funext fun a => Fin.ext ?_)
    match a with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega

theorem mem_blk3_2 (t : Fin cfg3.N) (i : S40960x128.Idx) :
    i ∈ ((cfg3.win 2).blk t).view.set ↔ ∀ a : Fin 2, win3_2.index t a * S2048x128.size a ≤ (i a).val ∧ (i a).val < win3_2.index t a * S2048x128.size a + S2048x128.size a := by
  show i ∈ ((View.whole main_v42).slice (win3_2.rect t)).set ↔ _
  rw [View.set_slice_whole, Rect.mem_set_unit]
  exact Iff.rfl

/-- Row `r` lies in the block of point `r / 2048`. -/
theorem covered3_2 (i : S40960x128.Idx) :
    ∃ t : Fin cfg3.N, (cfg3.win 2).flush t = true ∧ i ∈ ((cfg3.win 2).blk t).view.set := by
  have hi0 : (i 0).val < 40960 := (i 0).isLt
  have hi1 : (i 1).val < 128 := (i 1).isLt
  have hN : cfg3.N = 20 := by decide
  have ht : (i 0).val / 2048 < cfg3.N := by rw [hN]; omega
  obtain ⟨-, -, -, -, e20, e21⟩ := idx_rows3 ⟨(i 0).val / 2048, ht⟩
  refine ⟨⟨(i 0).val / 2048, ht⟩, flush3_2 _, ?_⟩
  rw [mem_blk3_2]
  intro a
  match a with
  | ⟨0, _⟩ =>
    show win3_2.index ⟨(i 0).val / 2048, ht⟩ (0 : Fin 2) * 2048 ≤ (i 0).val
      ∧ (i 0).val < win3_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win3_2.index ⟨(i 0).val / 2048, ht⟩ (1 : Fin 2) * 128 ≤ (i 1).val
      ∧ (i 1).val < win3_2.index ⟨(i 0).val / 2048, ht⟩ (1 : Fin 2) * 128 + 128
    rw [e21]; omega

/-- After the region its output array is the product of the padded features with the matrix. -/
theorem arrAt3_2 (c : Dev nD) :
    (dat3 (F := Ideal) V c).arrAt 2 cfg3.N = Cert.Spec.mm (N := 40960) (V c main_v39) (V c main_v41) :=
  (dat3 (F := Ideal) V c).arrAt_eq_of_cover 2 _ (fun t _ => flushed3_2_eq V c t) covered3_2

end Cert.KernelIdeal.Hand

end
-- ==== Proof.KI.Val4.lean ====
import proofs.«425587_j43765716746405_1_alg».proof.Proof.KI.R4
import proofs.«425587_j43765716746405_1_alg».proof.Proof.KI.P1

noncomputable section

open scoped BigOperators

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The printed index maps over the grid: at point `t` the index row and the weight row are at block `(0, t)`, the table at
    block `(0, 0)`, the output at block `(t, 0)`. -/
theorem index_facts4 : ∀ t : Fin cfg4.N,
    win4_0.index t (0 : Fin 2) = 0 ∧ win4_0.index t (1 : Fin 2) = t.val
    ∧ win4_1.index t (0 : Fin 2) = 0 ∧ win4_1.index t (1 : Fin 2) = t.val
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

abbrev src4 (c : Dev nD) : Fin 640000 → BitVec 32 := fun e => (V c main_v28 : S1x640000.Idx → BitVec 32) (ix2 0 e)
abbrev nrm4 (c : Dev nD) : Fin 640000 → EReal := fun e => (V c main_v30 : S1x640000.Idx → EReal) (ix2 0 e)
abbrev tab4 (c : Dev nD) : (Sr 40960).Idx → EReal := (V c main_v42 : S40960x128.Idx → EReal)

theorem read_blk4_3 (G : S640000x128.Idx → EReal) (t : Fin cfg4.N) (j : S256x128.Idx) (e : Fin 640000) (q : Fin 128)
    (he : e.val = win4_3.index t (0 : Fin 2) * 256 + (j 0).val) (hq : q.val = win4_3.index t (1 : Fin 2) * 128 + (j 1).val) :
    ((cfg4.win 3).blk t).view.read (Elt Ideal) G j = G (ix2 e q) := by
  show G (((cfg4.win 3).blk t).view.emb j) = G (ix2 e q)
  refine congrArg G (funext fun a => Fin.ext ?_)
  match a with
  | ⟨0, _⟩ => show win4_3.index t (0 : Fin 2) * 256 + 1 * (j 0).val = e.val; omega
  | ⟨1, _⟩ => show win4_3.index t (1 : Fin 2) * 128 + 1 * (j 1).val = q.val; omega

/-- Point `t`'s output block is block `t` of the specification's gather of the region's input arrays. -/
theorem flushed4_3 (c : Dev nD) (t : Fin cfg4.N) :
    (dat4 (F := Ideal) V c).flushed 3 t
      = ((cfg4.win 3).blk t).view.read (Elt Ideal) (gaK (src4 V c) (nrm4 V c) (tab4 V c)) := by
  show (cfg4.win 3).cut (grid4.coords t) ((dat4 (F := Ideal) V c).after 3 t) = _
  rw [after4_3]
  unfold out1_3
  rw [View.canon_unit_zero zeros1]
  simp only [View.ld_unit_zero (S := S1x256) zeros1, View.ld_unit_zero (S := S40960x128) zeros1]
  obtain ⟨e00, e01, e10, e11, e20, e21, e30, e31⟩ := index_facts4 t
  have hN : grid4.N = 2500 := N_4
  have ht : t.val < 2500 := hN ▸ t.isLt
  funext j
  have hj0 : (j 0).val < 256 := (j 0).isLt
  have hj1 : (j 1).val < 128 := (j 1).isLt
  refine (block1_value (iblk4 V c 0 t) (iblk4 V c 1 t) (iblk4 V c 2 t) (src4 V c) (nrm4 V c) (tab4 V c)
    ((cfg4.win 3).xinj (grid4.coords t) j) ⟨t.val * 256 + (j 0).val, by omega⟩ ?_ ?_ ?_).trans ?_
  · show (V c main_v28 : S1x640000.Idx → BitVec 32) (((cfg4.win 0).blk t).view.emb (ix2 0 ⟨(j 0).val, hj0⟩))
      = (V c main_v28 : S1x640000.Idx → BitVec 32) (ix2 0 ⟨t.val * 256 + (j 0).val, by omega⟩)
    refine congrArg _ (funext fun a => Fin.ext ?_)
    match a with
    | ⟨0, _⟩ => show win4_0.index t (0 : Fin 2) * 1 + 1 * 0 = 0; omega
    | ⟨1, _⟩ => show win4_0.index t (1 : Fin 2) * 256 + 1 * (j 0).val = t.val * 256 + (j 0).val; omega
  · show (V c main_v30 : S1x640000.Idx → EReal) (((cfg4.win 1).blk t).view.emb (ix2 0 ⟨(j 0).val, hj0⟩))
      = (V c main_v30 : S1x640000.Idx → EReal) (ix2 0 ⟨t.val * 256 + (j 0).val, by omega⟩)
    refine congrArg _ (funext fun a => Fin.ext ?_)
    match a with
    | ⟨0, _⟩ => show win4_1.index t (0 : Fin 2) * 1 + 1 * 0 = 0; omega
    | ⟨1, _⟩ => show win4_1.index t (1 : Fin 2) * 256 + 1 * (j 0).val = t.val * 256 + (j 0).val; omega
  · intro n
    show (V c main_v42 : S40960x128.Idx → EReal) (((cfg4.win 2).blk t).view.emb (ix2 n ⟨(j 1).val, hj1⟩))
      = (V c main_v42 : S40960x128.Idx → EReal) (ix2 n ⟨(j 1).val, hj1⟩)
    refine congrArg _ (funext fun a => Fin.ext ?_)
    match a with
    | ⟨0, _⟩ => show win4_2.index t (0 : Fin 2) * 40960 + 1 * n.val = n.val; omega
    | ⟨1, _⟩ => show win4_2.index t (1 : Fin 2) * 128 + 1 * (j 1).val = (j 1).val; omega
  · exact (read_blk4_3 (gaK (src4 V c) (nrm4 V c) (tab4 V c)) t j ⟨t.val * 256 + (j 0).val, by omega⟩ ⟨(j 1).val, hj1⟩
      (by show t.val * 256 + (j 0).val = _; omega) (by show (j 1).val = _; omega)).symm

theorem mem_blk4_3 (t : Fin cfg4.N) (i : S640000x128.Idx) :
    i ∈ ((cfg4.win 3).blk t).view.set
      ↔ ∀ a : Fin 2, win4_3.index t a * S256x128.size a ≤ (i a).val ∧ (i a).val < win4_3.index t a * S256x128.size a + S256x128.size a := by
  show i ∈ ((View.whole main_v43).slice (win4_3.rect t)).set ↔ _
  rw [View.set_slice_whole, Rect.mem_set_unit]
  exact Iff.rfl

/-- Row `r` lies in the block of point `r / 256`. -/
theorem cover4_arr (i : S640000x128.Idx) :
    ∃ t : Fin cfg4.N, (cfg4.win 3).flush t = true ∧ i ∈ ((cfg4.win 3).blk t).view.set := by
  have hi0 : (i 0).val < 640000 := (i 0).isLt
  have hi1 : (i 1).val < 128 := (i 1).isLt
  have hN : grid4.N = 2500 := N_4
  refine ⟨⟨(i 0).val / 256, by show (i 0).val / 256 < grid4.N; omega⟩, flush4_3 _, ?_⟩
  rw [mem_blk4_3]
  obtain ⟨-, -, -, -, -, -, e30, e31⟩ := index_facts4 ⟨(i 0).val / 256, by show (i 0).val / 256 < grid4.N; omega⟩
  intro a
  match a with
  | ⟨0, _⟩ =>
    show win4_3.index _ (0 : Fin 2) * 256 ≤ (i 0).val ∧ (i 0).val < win4_3.index _ (0 : Fin 2) * 256 + 256
    rw [e30]; show (i 0).val / 256 * 256 ≤ (i 0).val ∧ (i 0).val < (i 0).val / 256 * 256 + 256; omega
  | ⟨1, _⟩ =>
    show win4_3.index _ (1 : Fin 2) * 128 ≤ (i 1).val ∧ (i 1).val < win4_3.index _ (1 : Fin 2) * 128 + 128
    rw [e31]; omega

/-- After the region its output array holds, at edge `e` and column `d`, the sum over the table rows `n` of (the edge's weight
    where `n` is the edge's source index, zero elsewhere) times the table's entry `(n, d)`. -/
theorem arrAt4_3 (c : Dev nD) :
    (dat4 (F := Ideal) V c).arrAt 3 cfg4.N
      = Cert.Spec.gaK (fun e => V c main_v28 (ix2 0 e)) (fun e => V c main_v30 (ix2 0 e)) (V c main_v42) :=
  (dat4 (F := Ideal) V c).arrAt_eq_of_cover 3 (gaK (src4 V c) (nrm4 V c) (tab4 V c))
    (fun t _ => flushed4_3 V c t) cover4_arr

end Cert.KernelIdeal.Hand

end
-- ==== Proof.KI.Val5.lean ====
import proofs.«425587_j43765716746405_1_alg».proof.Proof.KI.R5
import proofs.«425587_j43765716746405_1_alg».proof.Proof.KI.P2

noncomputable section

open scoped BigOperators

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

namespace Val5

open Pay2

/-- Point `t` is row block `t / 125`, edge block `t % 125`; the destination row and the messages move with the edge block,
    the bias row stays, the output moves with the row block. -/
theorem idx_facts5 : ∀ t : Fin cfg5.N,
    (grid5.coords t 0).val = t.val / 125 ∧ (grid5.coords t 1).val = t.val % 125
    ∧ win5_0.index t (0 : Fin 2) = 0 ∧ win5_0.index t (1 : Fin 2) = t.val % 125
    ∧ win5_1.index t (0 : Fin 2) = t.val % 125 ∧ win5_1.index t (1 : Fin 2) = 0
    ∧ win5_2.index t (0 : Fin 2) = 0 ∧ win5_2.index t (1 : Fin 2) = 0
    ∧ win5_3.index t (0 : Fin 2) = t.val / 125 ∧ win5_3.index t (1 : Fin 2) = 0 :=
  (by decide +kernel : ∀ t : Fin grid5.N, _)

theorem N5 : cfg5.N = 2500 := N_5

section Value
variable (V : (c : Dev nD) → (b : Ref sig .tc) → Buf (Elt Ideal) ((c : Thread nD τ).loc b))

theorem iblk5_0_apply (c : Dev nD) (t : Fin cfg5.N) (k : Fin 5120) :
    (iblk5 (F := Ideal) V c 0 t : Vec Ideal S1x5120 .i32) (ix2 (0 : Fin 1) k)
      = (V c main_v29 : S1x640000.Idx → BitVec 32) (ix2 (0 : Fin 1) (edgeOf (t.val % 125) (Nat.mod_lt _ (by decide)) k)) := by
  obtain ⟨-, -, e0, e1, -⟩ := idx_facts5 t
  unfold iblk5
  rw [View.read_apply]
  show V c main_v29 _ = V c main_v29 _
  refine congrArg (V c main_v29) (funext fun a => Fin.ext ?_)
  match a with
  | ⟨0, _⟩ => show win5_0.index t (0 : Fin 2) * 1 + 1 * 0 = 0; rw [e0]
  | ⟨1, _⟩ => show win5_0.index t (1 : Fin 2) * 5120 + 1 * k.val = 5120 * (t.val % 125) + k.val; rw [e1]; omega

theorem iblk5_1_apply (c : Dev nD) (t : Fin cfg5.N) (k : Fin 5120) (d : Fin 128) :
    (iblk5 (F := Ideal) V c 1 t : Vec Ideal S5120x128 .bf16) (ix2 k d)
      = (V c main_v43 : S640000x128.Idx → EReal) (ix2 (edgeOf (t.val % 125) (Nat.mod_lt _ (by decide)) k) d) := by
  obtain ⟨-, -, -, -, e0, e1, -⟩ := idx_facts5 t
  unfold iblk5
  rw [View.read_apply]
  show V c main_v43 _ = V c main_v43 _
  refine congrArg (V c main_v43) (funext fun a => Fin.ext ?_)
  match a with
  | ⟨0, _⟩ => show win5_1.index t (0 : Fin 2) * 5120 + 1 * k.val = 5120 * (t.val % 125) + k.val; rw [e0]; omega
  | ⟨1, _⟩ => show win5_1.index t (1 : Fin 2) * 128 + 1 * d.val = d.val; rw [e1]; omega

theorem iblk5_2_apply (c : Dev nD) (t : Fin cfg5.N) (d : Fin 128) :
    (iblk5 (F := Ideal) V c 2 t : Vec Ideal S1x128 .f32) (ix2 (0 : Fin 1) d)
      = (V c main_v46 : S1x128.Idx → EReal) (ix2 (0 : Fin 1) d) := by
  obtain ⟨-, -, -, -, -, -, e0, e1, -⟩ := idx_facts5 t
  unfold iblk5
  rw [View.read_apply]
  show V c main_v46 _ = V c main_v46 _
  refine congrArg (V c main_v46) (funext fun a => Fin.ext ?_)
  match a with
  | ⟨0, _⟩ => show win5_2.index t (0 : Fin 2) * 1 + 1 * 0 = 0; rw [e0]
  | ⟨1, _⟩ => show win5_2.index t (1 : Fin 2) * 128 + 1 * d.val = d.val; rw [e1]; omega
end Value

section Value2
variable (V : (c : Dev nD) → (b : Ref sig .tc) → Buf (Elt Ideal) ((c : Thread nD τ).loc b))

/-- What point `n` adds to the accumulator at `(r, d)`: over its block's 5120 edges, the message entry of each edge whose
    destination word is the word of the point's row (zero past the grid). -/
def addend5 (c : Dev nD) (n : ℕ) : S2048x128.Idx → EReal := fun i =>
  if h : n < cfg5.N then
    ∑ k : Fin 5120,
      (if BitVec.ofNat 32 ((grid5.coords ⟨n, h⟩ 0).val * 2048 + (i 0).val)
          = (iblk5 (F := Ideal) V c 0 ⟨n, h⟩ : Vec Ideal S1x5120 .i32) (ix2 (0 : Fin 1) k) then (1 : EReal) else 0)
        * (iblk5 (F := Ideal) V c 1 ⟨n, h⟩ : Vec Ideal S5120x128 .bf16) (ix2 k (i 1))
  else 0

theorem step5_apply (c : Dev nD) (n : ℕ) (h : n < cfg5.N) (acc : Vec Ideal S2048x128 .f32) (i : S2048x128.Idx) :
    k2_pay2 (F := Ideal) (grid5.coords ⟨n, h⟩) (iblk5 (F := Ideal) V c 0 ⟨n, h⟩) (iblk5 (F := Ideal) V c 1 ⟨n, h⟩) acc i
      = acc i + addend5 V c n i := by
  obtain ⟨r, d, rfl⟩ : ∃ (r : Fin 2048) (d : Fin 128), i = ix2 r d := ⟨i 0, i 1, eq_ix2 i⟩
  rw [pay2_apply]
  unfold addend5
  rw [dif_pos h]

theorem accAt5_last (c : Dev nD) (t : Fin cfg5.N) (ht : t.val % 125 = 124) (i : S2048x128.Idx) :
    accAt5 (F := Ideal) V c t.val t.isLt i = 0 + ∑ s ∈ Finset.range 125, addend5 V c (125 * (t.val / 125) + s) i := by
  have hN : cfg5.N = 2500 := N5
  have hlt : t.val < 2500 := hN ▸ t.isLt
  have h' : 125 * (t.val / 125) + t.val % 125 < cfg5.N := by rw [Nat.div_add_mod]; exact t.isLt
  have e1 := Pipeline.eq_accAt_of_mod (N := cfg5.N) (fun n h => accAt5 (F := Ideal) V c n h) 125
    (fun n h => k2_pay2 (F := Ideal) (grid5.coords ⟨n, h⟩) (iblk5 (F := Ideal) V c 0 ⟨n, h⟩) (iblk5 (F := Ideal) V c 1 ⟨n, h⟩) (k2_pay1 (F := Ideal)))
    (fun n h acc => k2_pay2 (F := Ideal) (grid5.coords ⟨n, h⟩) (iblk5 (F := Ideal) V c 0 ⟨n, h⟩) (iblk5 (F := Ideal) V c 1 ⟨n, h⟩) acc)
    (fun n h hm => accAt5_first V c ⟨n, h⟩ hm)
    (fun n h hm => accAt5_next V c ⟨n + 1, h⟩ hm)
    (by decide) t.val t.isLt h'
  rw [e1]
  have e2 := Pipeline.accAt_add_apply (N := cfg5.N)
    (fun n h => k2_pay2 (F := Ideal) (grid5.coords ⟨n, h⟩) (iblk5 (F := Ideal) V c 0 ⟨n, h⟩) (iblk5 (F := Ideal) V c 1 ⟨n, h⟩) (k2_pay1 (F := Ideal)))
    (fun n h acc => k2_pay2 (F := Ideal) (grid5.coords ⟨n, h⟩) (iblk5 (F := Ideal) V c 0 ⟨n, h⟩) (iblk5 (F := Ideal) V c 1 ⟨n, h⟩) acc)
    (fun _ => (0 : EReal)) (fun n => addend5 V c n) (125 * (t.val / 125)) 124
    (fun h j => by rw [step5_apply, pay1_apply])
    (fun n h acc j _ _ => step5_apply V c n h acc j)
    (t.val % 125) (by omega) h' i
  rw [e2, ht]

theorem addend5_apply (c : Dev nD) (q : ℕ) (hq : q < 20) (s : Fin 125) (r : Fin 2048) (d : Fin 128) :
    addend5 V c (125 * q + s.val) (ix2 r d)
      = ∑ k : Fin 5120,
          (if BitVec.ofNat 32 (2048 * q + r.val) = (V c main_v29 : S1x640000.Idx → BitVec 32) (ix2 (0 : Fin 1) (edgeOf s.val s.isLt k))
            then (1 : EReal) else 0)
          * (V c main_v43 : S640000x128.Idx → EReal) (ix2 (edgeOf s.val s.isLt k) d) := by
  have hN : cfg5.N = 2500 := N5
  have hs := s.isLt
  have h : 125 * q + s.val < cfg5.N := by rw [hN]; omega
  unfold addend5
  rw [dif_pos h]
  obtain ⟨c0, -⟩ := idx_facts5 ⟨125 * q + s.val, h⟩
  have hdiv : (125 * q + s.val) / 125 = q := by omega
  have hmod : (125 * q + s.val) % 125 = s.val := by omega
  refine Finset.sum_congr rfl fun k _ => ?_
  rw [iblk5_0_apply, iblk5_1_apply, c0]
  have he : edgeOf ((⟨125 * q + s.val, h⟩ : Fin cfg5.N).val % 125) (Nat.mod_lt _ (by decide)) k = edgeOf s.val s.isLt k :=
    Fin.ext (by show 5120 * ((125 * q + s.val) % 125) + k.val = 5120 * s.val + k.val; rw [hmod])
  rw [he]
  show (if BitVec.ofNat 32 ((125 * q + s.val) / 125 * 2048 + r.val) = _ then (1 : EReal) else 0) * _ = _
  rw [hdiv, Nat.mul_comm q 2048]

/-- At a row block's last point the accumulator holds, at `(r, d)`, the sum over all the edges of the message entries of
    those whose destination word is the word of row `2048 (t / 125) + r`: 125 blocks of 5120 edges make the 640000. -/
theorem accAt5_last_apply (c : Dev nD) (t : Fin cfg5.N) (ht : t.val % 125 = 124) (r : Fin 2048) (d : Fin 128) :
    accAt5 (F := Ideal) V c t.val t.isLt (ix2 r d)
      = ∑ e : Fin 640000,
          (if BitVec.ofNat 32 (2048 * (t.val / 125) + r.val) = (V c main_v29 : S1x640000.Idx → BitVec 32) (ix2 (0 : Fin 1) e)
            then (1 : EReal) else 0)
          * (V c main_v43 : S640000x128.Idx → EReal) (ix2 e d) := by
  have hN : cfg5.N = 2500 := N5
  have hlt : t.val < 2500 := hN ▸ t.isLt
  have hq : t.val / 125 < 20 := by omega
  rw [accAt5_last V c t ht, zero_add, Finset.sum_range (fun s => addend5 V c (125 * (t.val / 125) + s) (ix2 r d)),
    ← sum_blocks (fun e : Fin 640000 =>
      (if BitVec.ofNat 32 (2048 * (t.val / 125) + r.val) = (V c main_v29 : S1x640000.Idx → BitVec 32) (ix2 (0 : Fin 1) e)
        then (1 : EReal) else 0) * (V c main_v43 : S640000x128.Idx → EReal) (ix2 e d))]
  exact Finset.sum_congr rfl fun s _ => addend5_apply V c (t.val / 125) hq s r d

abbrev G5 (c : Dev nD) : (Sr 40960).Idx → EReal :=
  scK (fun e => (V c main_v29 : S1x640000.Idx → BitVec 32) (ix2 (0 : Fin 1) e)) (V c main_v43 : S640000x128.Idx → EReal)
    (fun d => (V c main_v46 : S1x128.Idx → EReal) (ix2 (0 : Fin 1) d))

abbrev rowOf (t : Fin cfg5.N) (r : Fin 2048) : Fin 40960 :=
  ⟨2048 * (t.val / 125) + r.val, by have h : t.val < 2500 := N5 ▸ t.isLt; have := r.isLt; omega⟩

theorem read_blk5_3 (G : S40960x128.Idx → EReal) (t : Fin cfg5.N) (r : Fin 2048) (d : Fin 128) :
    (((cfg5.win 3).blk t).view.read (Elt Ideal) G : S2048x128.Idx → EReal) (ix2 r d) = G (ix2 (rowOf t r) d) := by
  obtain ⟨-, -, -, -, -, -, -, -, e0, e1⟩ := idx_facts5 t
  rw [View.read_apply]
  show G _ = G _
  refine congrArg G (funext fun a => Fin.ext ?_)
  match a with
  | ⟨0, _⟩ => show win5_3.index t (0 : Fin 2) * 2048 + 1 * r.val = 2048 * (t.val / 125) + r.val; rw [e0]; omega
  | ⟨1, _⟩ => show win5_3.index t (1 : Fin 2) * 128 + 1 * d.val = d.val; rw [e1]; omega

theorem cut5_3_apply {α : Type} (t : Fin cfg5.N) (X : S2048x128.Idx → α) (r : Fin 2048) (d : Fin 128) :
    ((cfg5.win 3).cut (grid5.coords t) X : S2048x128.Idx → α) (ix2 r d) = X (ix2 r d) := rfl

/-- A row block's last point leaves, as its output block, its block of the specification's scatter. -/
theorem flushed5_eq (c : Dev nD) (t : Fin cfg5.N) (hf : (cfg5.win 3).flush t = true) :
    (dat5 (F := Ideal) V c).flushed 3 t = ((cfg5.win 3).blk t).view.read (Elt Ideal) (G5 V c) := by
  have ht : t.val % 125 = 124 := (flush5_3 t).mp hf
  show (cfg5.win 3).cut (grid5.coords t) ((dat5 (F := Ideal) V c).after 3 t) = _
  rw [after5_3]
  generalize hG : G5 V c = G
  funext j
  obtain ⟨r, d, rfl⟩ : ∃ (r : Fin 2048) (d : Fin 128), j = ix2 r d := ⟨j 0, j 1, eq_ix2 j⟩
  refine (cut5_3_apply t _ r d).trans (Eq.trans ?_ (read_blk5_3 G t r d).symm)
  rw [← hG, pay3_apply, accAt5_last_apply V c t ht, iblk5_2_apply]
  exact (scK_apply (fun e => (V c main_v29 : S1x640000.Idx → BitVec 32) (ix2 (0 : Fin 1) e)) (V c main_v43 : S640000x128.Idx → EReal)
    (fun d => (V c main_v46 : S1x128.Idx → EReal) (ix2 (0 : Fin 1) d)) (rowOf t r) d).symm

/-- Every row lies in the output block of some row block's last point. -/
theorem cover5 (i : S40960x128.Idx) :
    ∃ t : Fin cfg5.N, (cfg5.win 3).flush t = true ∧ i ∈ ((cfg5.win 3).blk t).view.set := by
  have hN : cfg5.N = 2500 := N5
  have hi0 : (i 0).val < 40960 := (i 0).isLt
  have hi1 : (i 1).val < 128 := (i 1).isLt
  have hb : 125 * ((i 0).val / 2048) + 124 < cfg5.N := by rw [hN]; omega
  have htm : (125 * ((i 0).val / 2048) + 124) % 125 = 124 := by omega
  have htd : (125 * ((i 0).val / 2048) + 124) / 125 = (i 0).val / 2048 := by omega
  obtain ⟨-, -, -, -, -, -, -, -, e0, e1⟩ := idx_facts5 ⟨125 * ((i 0).val / 2048) + 124, hb⟩
  refine ⟨⟨125 * ((i 0).val / 2048) + 124, hb⟩, (flush5_3 _).mpr htm, ?_⟩
  show i ∈ ((View.whole main_v47).slice (win5_3.rect ⟨125 * ((i 0).val / 2048) + 124, hb⟩)).set
  rw [View.set_slice_whole, Rect.mem_set_unit]
  intro a
  match a with
  | ⟨0, _⟩ =>
    show win5_3.index ⟨125 * ((i 0).val / 2048) + 124, hb⟩ (0 : Fin 2) * 2048 ≤ (i 0).val
      ∧ (i 0).val < win5_3.index ⟨125 * ((i 0).val / 2048) + 124, hb⟩ (0 : Fin 2) * 2048 + 2048
    rw [e0]
    show (125 * ((i 0).val / 2048) + 124) / 125 * 2048 ≤ (i 0).val ∧ (i 0).val < (125 * ((i 0).val / 2048) + 124) / 125 * 2048 + 2048
    rw [htd]; omega
  | ⟨1, _⟩ =>
    show win5_3.index ⟨125 * ((i 0).val / 2048) + 124, hb⟩ (1 : Fin 2) * 128 ≤ (i 1).val
      ∧ (i 1).val < win5_3.index ⟨125 * ((i 0).val / 2048) + 124, hb⟩ (1 : Fin 2) * 128 + 128
    rw [e1]; omega

end Value2

end Val5

variable (V : (c : Dev nD) → (b : Ref sig .tc) → Buf (Elt Ideal) ((c : Thread nD τ).loc b))

/-- After the region its output array holds, at padded row `n` and column `d`, the sum over all the edges of (one where the
    word of `n` is the edge's destination word, zero elsewhere) times the message entry `(e, d)`, plus the bias entry `d`. -/
theorem arrAt5_3 (c : Dev nD) :
    (dat5 (F := Ideal) V c).arrAt 3 cfg5.N
      = Cert.Spec.scK (fun e => (V c main_v29 : S1x640000.Idx → BitVec 32) (ix2 (0 : Fin 1) e)) (V c main_v43 : S640000x128.Idx → EReal)
          (fun d => (V c main_v46 : S1x128.Idx → EReal) (ix2 (0 : Fin 1) d)) :=
  (dat5 (F := Ideal) V c).arrAt_eq_of_cover 3 (Val5.G5 V c) (Val5.flushed5_eq V c) Val5.cover5

end Cert.KernelIdeal.Hand

end
-- ==== Proof.KI.HostVals.lean ====
import proofs.«425587_j43765716746405_1_alg».proof.Proof.KI.Stages
import proofs.«425587_j43765716746405_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.Hand

open Cert.KernelIdeal Cert.KernelIdeal.Gen Cert.Spec
open Idealize.ShloMosaic Idealize.ShloMosaic.TcCoe Idealize.ShloMosaic.ValueIdx Idealize.ShloMosaic.StableHlo

variable (m : (ℓ : Loc nD τ sig) → Buf (Elt Ideal) ℓ) (c : Dev nD)

/-- A host stretch leaves a buffer it does not write. -/
theorem U8_unwritten (r : Ref sig .tc) (h : r ∉ hostOps2_W) : U8 m c r = X7 m c r :=
  StableHlo.after_of_writes_sub hostOps2 _ hostOps2_writes h
theorem U10_unwritten (r : Ref sig .tc) (h : r ∉ hostOps3_W) : U10 m c r = X9 m c r :=
  StableHlo.after_of_writes_sub hostOps3 _ hostOps3_writes h
theorem U13_unwritten (r : Ref sig .tc) (h : r ∉ hostOps5_W) : U13 m c r = X12 m c r :=
  StableHlo.after_of_writes_sub hostOps5 _ hostOps5_writes h

theorem X6_v28 : X6 m c main_v28 = U5 m c main_v28 := X6_of m c main_v28 (by decide)
theorem X6_v30 : X6 m c main_v30 = U5 m c main_v30 := X6_of m c main_v30 (by decide)
theorem X7_v29 : X7 m c main_v29 = U5 m c main_v29 :=
  (X7_of m c main_v29 (by decide)).trans (X6_of m c main_v29 (by decide))
theorem U8_v29 : U8 m c main_v29 = U5 m c main_v29 :=
  (U8_unwritten m c main_v29 (by decide)).trans (X7_v29 m c)
theorem U8_v35 : U8 m c main_v35 = X7 m c main_v35 := U8_unwritten m c main_v35 (by decide)
theorem U10_v39 : U10 m c main_v39 = X9 m c main_v39 := U10_unwritten m c main_v39 (by decide)

/-- A buffer nothing writes from region 0 to region 3 holds before region 4 what it held before region 0. -/
theorem X11_of_U5 (r : Ref sig .tc) (h42 : r ≠ main_v42) (h3 : r ∉ hostOps3_W) (h39 : r ≠ main_v39) (h2 : r ∉ hostOps2_W)
    (h35 : r ≠ main_v35) (h34 : r ≠ main_v34) : X11 m c r = U5 m c r :=
  (X11_of m c r h42).trans <| (U10_unwritten m c r h3).trans <| (X9_of m c r h39).trans <| (U8_unwritten m c r h2).trans <|
    (X7_of m c r h35).trans (X6_of m c r h34)
theorem X11_v28 : X11 m c main_v28 = U5 m c main_v28 :=
  X11_of_U5 m c main_v28 (by decide) (by decide) (by decide) (by decide) (by decide) (by decide)
theorem X11_v30 : X11 m c main_v30 = U5 m c main_v30 :=
  X11_of_U5 m c main_v30 (by decide) (by decide) (by decide) (by decide) (by decide) (by decide)
theorem U13_v29 : U13 m c main_v29 = U5 m c main_v29 :=
  (U13_unwritten m c main_v29 (by decide)).trans <| (X12_of m c main_v29 (by decide)).trans <|
    X11_of_U5 m c main_v29 (by decide) (by decide) (by decide) (by decide) (by decide) (by decide)
theorem U13_v43 : U13 m c main_v43 = X12 m c main_v43 := U13_unwritten m c main_v43 (by decide)

/-- A buffer the first five host stretches do not write holds its launch contents before region 0. -/
theorem U5_launch (r : Ref sig .tc) (h4 : r ∉ hostOps0_4_W) (h3 : r ∉ hostOps0_3_W) (h2 : r ∉ hostOps0_2_W) (h1 : r ∉ hostOps0_1_W)
    (h0 : r ∉ hostOps0_W) : U5 m c r = m ((c.tc : Thread nD τ).loc r) :=
  (Gen.V5_of m c r h4).trans <| (Gen.V4_of m c r h3).trans <| (Gen.V3_of m c r h2).trans <| (Gen.V2_of m c r h1).trans <|
    (Gen.V1_of m c r h0).trans rfl
/-- The bias array and the matrices' array are as launched where a later host stretch reads them. -/
theorem X7_arg2 : X7 m c main_arg2 = m ((c.tc : Thread nD τ).loc main_arg2) :=
  (X7_of m c main_arg2 (by decide)).trans <| (X6_of m c main_arg2 (by decide)).trans <|
    U5_launch m c main_arg2 (by decide) (by decide) (by decide) (by decide) (by decide)
theorem X9_arg1 : X9 m c main_arg1 = m ((c.tc : Thread nD τ).loc main_arg1) :=
  (X9_of m c main_arg1 (by decide)).trans <| (U8_unwritten m c main_arg1 (by decide)).trans <| (X7_of m c main_arg1 (by decide)).trans <|
    (X6_of m c main_arg1 (by decide)).trans <| U5_launch m c main_arg1 (by decide) (by decide) (by decide) (by decide) (by decide)
theorem X12_arg2 : X12 m c main_arg2 = m ((c.tc : Thread nD τ).loc main_arg2) :=
  (X12_of m c main_arg2 (by decide)).trans <| (X11_of m c main_arg2 (by decide)).trans <| (U10_unwritten m c main_arg2 (by decide)).trans <|
    (X9_of m c main_arg2 (by decide)).trans <| (U8_unwritten m c main_arg2 (by decide)).trans (X7_arg2 m c)

/-- The product of the two counts at each edge: how many edges share its source word and how many its destination word, each
    count read back at the word wrapped and clamped into the table. -/
def degProd {F : FTy → Type} [FloatOps F] (a3 : IVec S2x640000 32) : FVec F S640000 .f32 :=
  mulf
    (Host.gather gather_S40000_S640000x1_S640000_n_0_n_n_0_1_1
        (Host.scatterAdd scatter_S40000_S640000x1_S640000_n_0_0_1
          (broadcastInDim S40000 ![] bcast_S_S40000 (constant (F := F) S_ .f32 0x00000000#32))
          (broadcastInDim S640000x1 ![0] bcast_S640000_S640000x1_0 (shapeCast S640000 (extractStridedSlice S1x640000 ![0, 0] a3 slices_S2x640000_S1x640000_0_0) shapeCasts_S1x640000_S640000))
          (broadcastInDim S640000 ![] bcast_S_S640000 (constant (F := F) S_ .f32 0x3F800000#32)))
        (broadcastInDim S640000x1 ![0] bcast_S640000_S640000x1_0
          (select (cmpi .slt (shapeCast S640000 (extractStridedSlice S1x640000 ![0, 0] a3 slices_S2x640000_S1x640000_0_0) shapeCasts_S1x640000_S640000) (broadcastInDim S640000 ![] bcast_S_S640000 (constantI S_ 32 0#32)))
            (addi (shapeCast S640000 (extractStridedSlice S1x640000 ![0, 0] a3 slices_S2x640000_S1x640000_0_0) shapeCasts_S1x640000_S640000) (broadcastInDim S640000 ![] bcast_S_S640000 (constantI S_ 32 40000#32)))
            (shapeCast S640000 (extractStridedSlice S1x640000 ![0, 0] a3 slices_S2x640000_S1x640000_0_0) shapeCasts_S1x640000_S640000))))
    (Host.gather gather_S40000_S640000x1_S640000_n_0_n_n_0_1_1
        (Host.scatterAdd scatter_S40000_S640000x1_S640000_n_0_0_1
          (broadcastInDim S40000 ![] bcast_S_S40000 (constant (F := F) S_ .f32 0x00000000#32))
          (broadcastInDim S640000x1 ![0] bcast_S640000_S640000x1_0 (shapeCast S640000 (extractStridedSlice S1x640000 ![1, 0] a3 slices_S2x640000_S1x640000_1_0) shapeCasts_S1x640000_S640000))
          (broadcastInDim S640000 ![] bcast_S_S640000 (constant (F := F) S_ .f32 0x3F800000#32)))
        (broadcastInDim S640000x1 ![0] bcast_S640000_S640000x1_0
          (select (cmpi .slt (shapeCast S640000 (extractStridedSlice S1x640000 ![1, 0] a3 slices_S2x640000_S1x640000_1_0) shapeCasts_S1x640000_S640000) (broadcastInDim S640000 ![] bcast_S_S640000 (constantI S_ 32 0#32)))
            (addi (shapeCast S640000 (extractStridedSlice S1x640000 ![1, 0] a3 slices_S2x640000_S1x640000_1_0) shapeCasts_S1x640000_S640000) (broadcastInDim S640000 ![] bcast_S_S640000 (constantI S_ 32 40000#32)))
            (shapeCast S640000 (extractStridedSlice S1x640000 ![1, 0] a3 slices_S2x640000_S1x640000_1_0) shapeCasts_S1x640000_S640000))))

/-- The edge weights: the reciprocal square root of the larger of 1 and the product of the two counts. -/
def nrmVec {F : FTy → Type} [FloatOps F] (a3 : IVec S2x640000 32) : FVec F S640000 .f32 :=
  Host.rsqrt (maximumf (broadcastInDim S640000 ![] bcast_S_S640000 (constant (F := F) S_ .f32 0x3F800000#32)) (degProd a3))

/-- The weight of edge `e`, over the extended reals. -/
def nrmK (a3 : (⟨2, ![2, 640000]⟩ : Shape).Idx → BitVec 32) : Fin 640000 → EReal :=
  fun e => nrmVec (F := Ideal) a3 (ix1 e)

section Stretch
variable (V : Valuation τ sig (Elt Ideal))

/-- Each host stretch's results as terms of the contents before it. -/
theorem s0_v1 : (StableHlo.after hostOps0 V main_v1 : IVec S640000 32) =
    shapeCast S640000 (extractStridedSlice S1x640000 ![0, 0] (V main_arg3 : IVec S2x640000 32) slices_S2x640000_S1x640000_0_0)
      shapeCasts_S1x640000_S640000 := by
  dsimp only [Gen.hostOps0]; after_results_simp; rfl
theorem s0_v3 : (StableHlo.after hostOps0 V main_v3 : IVec S640000 32) =
    shapeCast S640000 (extractStridedSlice S1x640000 ![1, 0] (V main_arg3 : IVec S2x640000 32) slices_S2x640000_S1x640000_1_0)
      shapeCasts_S1x640000_S640000 := by
  dsimp only [Gen.hostOps0]; after_results_simp; rfl
set_option maxHeartbeats 1000000 in
theorem s0_v25 : (StableHlo.after hostOps0 V main_v25 : FVec Ideal S640000 .f32) = degProd (F := Ideal) (V main_arg3 : IVec S2x640000 32) := by
  dsimp only [Gen.hostOps0]; after_results_simp; rfl
theorem s0_cst_5 : (StableHlo.after hostOps0 V main_cst_5 : FVec Ideal S_ .f32) = constant (F := Ideal) S_ .f32 0x3F800000#32 := by
  dsimp only [Gen.hostOps0]; after_results_simp
theorem s1_v26 : (StableHlo.after hostOps0_1 V main_v26 : FVec Ideal S640000 .f32) =
    maximumf (F := Ideal) (φ := .f32) (broadcastInDim (α := EReal) S640000 ![] bcast_S_S640000 (V main_cst_5 : FVec Ideal S_ .f32))
      (V main_v25 : FVec Ideal S640000 .f32) := by
  dsimp only [Gen.hostOps0_1]; after_results; rfl
theorem s2_v28 : (StableHlo.after hostOps0_2 V main_v28 : IVec S1x640000 32) =
    shapeCast S1x640000 (V main_v1 : IVec S640000 32) shapeCasts_S640000_S1x640000 := by
  dsimp only [Gen.hostOps0_2]; after_results; rfl
theorem s2_v29 : (StableHlo.after hostOps0_2 V main_v29 : IVec S1x640000 32) =
    shapeCast S1x640000 (V main_v3 : IVec S640000 32) shapeCasts_S640000_S1x640000 := by
  dsimp only [Gen.hostOps0_2]; after_results; rfl
theorem s2_v30 : (StableHlo.after hostOps0_2 V main_v30 : FVec Ideal S1x640000 .f32) =
    shapeCast (α := EReal) S1x640000 (Host.rsqrt (F := Ideal) (φ := .f32) (V main_v26 : FVec Ideal S640000 .f32)) shapeCasts_S640000_S1x640000 := by
  dsimp only [Gen.hostOps0_2]; after_results; rfl
theorem s3_v31 : (StableHlo.after hostOps0_3 V main_v31 : FVec Ideal S40960x128 .f32) =
    pad S40960x128 ![0, 0] ![960, 0] ![0, 0] (V main_arg0 : FVec Ideal S40000x128 .f32) (sitofp (F := Ideal) .f32 (V main_c_6 : IVec S_ 32))
      pads_S40000x128_S40960x128_09600_000 h_S_ := by
  dsimp only [Gen.hostOps0_3]; after_results; rfl
theorem s4_v33 : (StableHlo.after hostOps0_4 V main_v33 : FVec Ideal S128x128 .f32) =
    shapeCast S128x128 (extractStridedSlice S1x128x128 ![0, 0, 0] (V main_arg1 : FVec Ideal S2x128x128 .f32) slices_S2x128x128_S1x128x128_0_0_0)
      shapeCasts_S1x128x128_S128x128 := by
  dsimp only [Gen.hostOps0_4]; after_results; rfl
theorem s_v38 : (StableHlo.after hostOps2 V main_v38 : FVec Ideal S1x128 .f32) =
    shapeCast S1x128 (shapeCast S128 (extractStridedSlice S1x128 ![0, 0] (V main_arg2 : FVec Ideal S2x128 .f32) slices_S2x128_S1x128_0_0)
      shapeCasts_S1x128_S128) shapeCasts_S128_S1x128 := by
  dsimp only [Gen.hostOps2]; after_results; rfl
theorem s_v41 : (StableHlo.after hostOps3 V main_v41 : FVec Ideal S128x128 .f32) =
    shapeCast S128x128 (extractStridedSlice S1x128x128 ![1, 0, 0] (V main_arg1 : FVec Ideal S2x128x128 .f32) slices_S2x128x128_S1x128x128_1_0_0)
      shapeCasts_S1x128x128_S128x128 := by
  dsimp only [Gen.hostOps3]; after_results; rfl
theorem s_v46 : (StableHlo.after hostOps5 V main_v46 : FVec Ideal S1x128 .f32) =
    shapeCast S1x128 (shapeCast S128 (extractStridedSlice S1x128 ![1, 0] (V main_arg2 : FVec Ideal S2x128 .f32) slices_S2x128_S1x128_1_0)
      shapeCasts_S1x128_S128) shapeCasts_S128_S1x128 := by
  dsimp only [Gen.hostOps5]; after_results; rfl
theorem s_v48 : (StableHlo.after hostOps6 V main_v48 : FVec Ideal S40000x128 .f32) =
    extractStridedSlice S40000x128 ![0, 0] (V main_v47 : FVec Ideal S40960x128 .f32) slices_S40960x128_S40000x128_0_0 := by
  dsimp only [Gen.hostOps6]; after_results

end Stretch

/-- Before region 0: the two index rows and the weights as 1 x 640000 arrays of the edge-index argument. -/
theorem v28_vec : (U5 m c main_v28 : IVec S1x640000 32) =
    shapeCast S1x640000 (shapeCast S640000 (extractStridedSlice S1x640000 ![0, 0] ((m ((c.tc : Thread nD τ).loc main_arg3)) : IVec S2x640000 32) slices_S2x640000_S1x640000_0_0)
      shapeCasts_S1x640000_S640000) shapeCasts_S640000_S1x640000 := by
  refine ((Gen.V5_of m c main_v28 (by decide)).trans (Gen.V4_of m c main_v28 (by decide))).trans ?_
  refine (s2_v28 (Gen.V2 m c)).trans ?_
  rw [Gen.V2_of m c main_v1 (by decide)]
  exact congrArg (fun v => shapeCast S1x640000 v shapeCasts_S640000_S1x640000) (s0_v1 (Gen.V0 m c))

theorem v29_vec : (U5 m c main_v29 : IVec S1x640000 32) =
    shapeCast S1x640000 (shapeCast S640000 (extractStridedSlice S1x640000 ![1, 0] ((m ((c.tc : Thread nD τ).loc main_arg3)) : IVec S2x640000 32) slices_S2x640000_S1x640000_1_0)
      shapeCasts_S1x640000_S640000) shapeCasts_S640000_S1x640000 := by
  refine ((Gen.V5_of m c main_v29 (by decide)).trans (Gen.V4_of m c main_v29 (by decide))).trans ?_
  refine (s2_v29 (Gen.V2 m c)).trans ?_
  rw [Gen.V2_of m c main_v3 (by decide)]
  exact congrArg (fun v => shapeCast S1x640000 v shapeCasts_S640000_S1x640000) (s0_v3 (Gen.V0 m c))

theorem v30_vec : (U5 m c main_v30 : FVec Ideal S1x640000 .f32) =
    shapeCast S1x640000 (nrmVec (F := Ideal) ((m ((c.tc : Thread nD τ).loc main_arg3)) : IVec S2x640000 32)) shapeCasts_S640000_S1x640000 := by
  refine ((Gen.V5_of m c main_v30 (by decide)).trans (Gen.V4_of m c main_v30 (by decide))).trans ?_
  refine (s2_v30 (Gen.V2 m c)).trans ?_
  have e26 : (Gen.V2 m c main_v26 : FVec Ideal S640000 .f32) =
      maximumf (F := Ideal) (φ := .f32) (broadcastInDim (α := EReal) S640000 ![] bcast_S_S640000 (constant (F := Ideal) S_ .f32 0x3F800000#32))
        (degProd (F := Ideal) ((m ((c.tc : Thread nD τ).loc main_arg3)) : IVec S2x640000 32)) := by
    refine (s1_v26 (Gen.V1 m c)).trans ?_
    rw [show (Gen.V1 m c main_cst_5 : FVec Ideal S_ .f32) = _ from s0_cst_5 (Gen.V0 m c),
      show (Gen.V1 m c main_v25 : FVec Ideal S640000 .f32) = _ from s0_v25 (Gen.V0 m c)]
  rw [e26]
  rfl

/-- Read at an edge, these are the specification's `srcOf`, `dstOf` and the weight. -/
theorem v28_src (e : Fin 640000) : U5 m c main_v28 (ix2 0 e) = srcOf (m ((c.tc : Thread nD τ).loc main_arg3)) e := by
  refine (congrFun (v28_vec m c) (ix2 0 e)).trans ?_
  refine (shapeCast_a_1a_apply _ _ 0 e).trans ?_
  refine (shapeCast_1a_a_apply _ _ e).trans ?_
  exact slice2_axis0_apply 0 _ _ 0 e 0 (by rfl)

theorem v29_dst (e : Fin 640000) : U5 m c main_v29 (ix2 0 e) = dstOf (m ((c.tc : Thread nD τ).loc main_arg3)) e := by
  refine (congrFun (v29_vec m c) (ix2 0 e)).trans ?_
  refine (shapeCast_a_1a_apply _ _ 0 e).trans ?_
  refine (shapeCast_1a_a_apply _ _ e).trans ?_
  exact slice2_axis0_apply 1 _ _ 0 e 1 (by rfl)

theorem v30_nrm (e : Fin 640000) : U5 m c main_v30 (ix2 0 e) = nrmK (m ((c.tc : Thread nD τ).loc main_arg3)) e := by
  refine (congrFun (v30_vec m c) (ix2 0 e)).trans ?_
  exact shapeCast_a_1a_apply _ _ 0 e

/-- The padding keeps the first 40000 rows. -/
theorem v31_row (n : Fin 40000) (k : Fin 128) : U5 m c main_v31 (ix2 ⟨n.val, by omega⟩ k) = (m ((c.tc : Thread nD τ).loc main_arg0)) (ix2 n k) := by
  have e : (U5 m c main_v31 : FVec Ideal S40960x128 .f32) =
      pad S40960x128 ![0, 0] ![960, 0] ![0, 0] ((m ((c.tc : Thread nD τ).loc main_arg0)) : FVec Ideal S40000x128 .f32) (sitofp (F := Ideal) .f32 (Gen.V3 m c main_c_6 : IVec S_ 32))
        pads_S40000x128_S40960x128_09600_000 h_S_ := by
    refine (Gen.V5_of m c main_v31 (by decide)).trans ?_
    refine (s3_v31 (Gen.V3 m c)).trans ?_
    rw [show Gen.V3 m c main_arg0 = (m ((c.tc : Thread nD τ).loc main_arg0)) from (Gen.V3_of m c main_arg0 (by decide)).trans <| (Gen.V2_of m c main_arg0 (by decide)).trans <|
      (Gen.V1_of m c main_arg0 (by decide)).trans rfl]
  refine (congrFun e _).trans ?_
  refine pad_apply_of_inside _ _ _ _ _ _ _ _ (ix2 n k) (fun a => ?_)
  match a with
  | ⟨0, _⟩ => show n.val = 0 + n.val * (0 + 1); omega
  | ⟨1, _⟩ => show k.val = 0 + k.val * (0 + 1); omega

/-- The first layer's matrix. -/
theorem v33_eq : (U5 m c main_v33 : Sw.Idx → EReal) = Wl (m ((c.tc : Thread nD τ).loc main_arg1)) 0 := by
  refine (s4_v33 (Gen.V4 m c)).trans ?_
  rw [show Gen.V4 m c main_arg1 = (m ((c.tc : Thread nD τ).loc main_arg1)) from (Gen.V4_of m c main_arg1 (by decide)).trans <| (Gen.V3_of m c main_arg1 (by decide)).trans <|
    (Gen.V2_of m c main_arg1 (by decide)).trans <| (Gen.V1_of m c main_arg1 (by decide)).trans rfl]
  funext i
  obtain ⟨a, b, rfl⟩ : ∃ a b, i = ix2 a b := ⟨i 0, i 1, eq_ix2 i⟩
  refine (shapeCast_1ab_ab_apply _ _ a b).trans ?_
  refine extractStridedSlice_apply _ _ _ _ (ix3 0 a b) (fun ax => ?_)
  match ax with
  | ⟨0, _⟩ => rfl
  | ⟨1, _⟩ => exact (Nat.zero_add _).symm
  | ⟨2, _⟩ => exact (Nat.zero_add _).symm

/-- The first layer's bias row. -/
theorem v38_bias (d : Fin 128) : U8 m c main_v38 (ix2 0 d) = bl (m ((c.tc : Thread nD τ).loc main_arg2)) 0 d := by
  refine (congrFun (s_v38 (X7 m c)) (ix2 0 d)).trans ?_
  rw [X7_arg2]
  refine (shapeCast_a_1a_apply _ _ 0 d).trans ?_
  refine (shapeCast_1a_a_apply _ _ d).trans ?_
  exact slice2_axis0_apply 0 _ _ 0 d 0 (by rfl)

/-- The second layer's matrix. -/
theorem v41_eq : (U10 m c main_v41 : Sw.Idx → EReal) = Wl (m ((c.tc : Thread nD τ).loc main_arg1)) 1 := by
  refine (s_v41 (X9 m c)).trans ?_
  rw [X9_arg1]
  funext i
  obtain ⟨a, b, rfl⟩ : ∃ a b, i = ix2 a b := ⟨i 0, i 1, eq_ix2 i⟩
  refine (shapeCast_1ab_ab_apply _ _ a b).trans ?_
  refine extractStridedSlice_apply _ _ _ _ (ix3 1 a b) (fun ax => ?_)
  match ax with
  | ⟨0, _⟩ => rfl
  | ⟨1, _⟩ => exact (Nat.zero_add _).symm
  | ⟨2, _⟩ => exact (Nat.zero_add _).symm

/-- The second layer's bias row. -/
theorem v46_bias (d : Fin 128) : U13 m c main_v46 (ix2 0 d) = bl (m ((c.tc : Thread nD τ).loc main_arg2)) 1 d := by
  refine (congrFun (s_v46 (X12 m c)) (ix2 0 d)).trans ?_
  rw [X12_arg2]
  refine (shapeCast_a_1a_apply _ _ 0 d).trans ?_
  refine (shapeCast_1a_a_apply _ _ d).trans ?_
  exact slice2_axis0_apply 1 _ _ 0 d 1 (by rfl)

/-- The result is the first 40000 rows of the second layer's padded output. -/
theorem v48_row (n : Fin 40000) (d : Fin 128) :
    Gen.V15 m (outs m) c main_v48 (ix2 n d) = X14 m c main_v47 (ix2 ⟨n.val, by omega⟩ d) := by
  refine (congrFun (s_v48 (Gen.V14 m (outs m) c)) (ix2 n d)).trans ?_
  rw [V14_eq]
  exact slice2_axis0_apply 0 _ _ n d _ (Nat.zero_add _).symm

end Cert.KernelIdeal.Hand

end
-- ==== Proof.RefValue.lean ====
import proofs.«425587_j43765716746405_1_alg».proof.Proof.Gen.ReferenceIdeal.Read
import proofs.«425587_j43765716746405_1_alg».proof.Proof.Spec

noncomputable section

open scoped BigOperators

namespace Cert.ReferenceIdeal.RefValue

open Cert.ReferenceIdeal Cert.ReferenceIdeal.Gen Cert.ReferenceIdeal.Read Cert.Spec
open Idealize.ShloMosaic Idealize.ShloMosaic.ValueIdx Idealize.ShloMosaic.TcCoe Idealize.SL.Sem Idealize.ShloMosaic.StableHlo

/-- The edge weights as the reference computes them from the edge-index array, kept as one function that nothing here opens. -/
def nrmR (a3 : (⟨2, ![2, 640000]⟩ : Shape).Idx → BitVec 32) : Fin 640000 → EReal :=
  fun e => Read.val_main_v27 (F := Ideal) a3 (ix1 e)

/-- Compare with zero, add 40000, select: a negative word counts from the end. -/
theorem wrap_eq (w : BitVec 32) :
    Scalar.select (IntOp.cmpi .slt w 0#32) (IntOp.addi w 40000#32) w = if w.toInt < 0 then w + 40000#32 else w := by
  unfold Scalar.select IntOp.cmpi IntOp.addi
  by_cases h : w.toInt < 0
  · have hs : w.slt 0#32 = true := by simp [BitVec.slt, h]
    simp [hs, h]
  · have hs : w.slt 0#32 = false := by simp [BitVec.slt, h]
    simp [hs, h]

theorem gather_siIdx (e : Fin 640000) (d : Fin 128) :
    GatherDims.siIdx gather_S40000x128_S640000x1_S640000x128_1_0_n_n_0_1_1128 (ix2 e d)
      ⟨List.idxOf (0 : Fin 2) (GatherDims.startIndexMap gather_S40000x128_S640000x1_S640000x128_1_0_n_n_0_1_1128),
        List.idxOf_lt_length_iff.2 (List.mem_singleton.mpr rfl)⟩ = ix2 e (0 : Fin 1) := by
  funext b; refine Fin.ext ?_
  match b with
  | ⟨0, _⟩ => rfl
  | ⟨1, _⟩ => rfl

/-- A start word read signed and clamped into the table's rows. -/
def clampRow (w : BitVec 32) : Fin 40000 := ⟨min w.toInt.toNat 39999, by omega⟩

/-- The row gather at `(e, d)`: the table at the row the edge's start word names, read signed and clamped, and column `d`. -/
theorem gather_row {α : Type} (x : S40000x128.Idx → α) (idx : IVec S640000x1 32) (e : Fin 640000) (d : Fin 128) :
    Host.gather gather_S40000x128_S640000x1_S640000x128_1_0_n_n_0_1_1128 x idx (ix2 e d)
      = x (ix2 (clampRow (idx (ix2 e (0 : Fin 1)))) d) := by
  unfold Host.gather
  congr 1
  funext a
  refine Fin.ext ?_
  match a with
  | ⟨0, _⟩ =>
    show GatherDims.start gather_S40000x128_S640000x1_S640000x128_1_0_n_n_0_1_1128 (ix2 e d) idx 0
        + GatherDims.batchCoord gather_S40000x128_S640000x1_S640000x128_1_0_n_n_0_1_1128 (ix2 e d) 0
        + GatherDims.offCoord gather_S40000x128_S640000x1_S640000x128_1_0_n_n_0_1_1128 (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gather_S40000x128_S640000x1_S640000x128_1_0_n_n_0_1_1128 from List.mem_singleton.mpr rfl)]
    rw [gather_siIdx e d]
    rfl
  | ⟨1, _⟩ =>
    show GatherDims.start gather_S40000x128_S640000x1_S640000x128_1_0_n_n_0_1_1128 (ix2 e d) idx 1
        + GatherDims.batchCoord gather_S40000x128_S640000x1_S640000x128_1_0_n_n_0_1_1128 (ix2 e d) 1
        + GatherDims.offCoord gather_S40000x128_S640000x1_S640000x128_1_0_n_n_0_1_1128 (ix2 e d) 1 = _
    rw [GatherDims.batchCoord_eq_zero _ _ _ List.not_mem_nil]
    unfold GatherDims.start
    rw [dif_neg (show ¬ (1 : Fin 2) ∈ GatherDims.startIndexMap gather_S40000x128_S640000x1_S640000x128_1_0_n_n_0_1_1128 by decide)]
    simp only [Nat.add_zero, Nat.zero_add]
    rfl

theorem scatter_siIdx (e : Fin 640000) (d : Fin 128) :
    ScatterDims.siIdx scatter_S40000x128_S640000x1_S640000x128_1_0_0_1 (ix2 e d)
      ⟨List.idxOf (0 : Fin 2) (ScatterDims.scatterDimsToOperandDims scatter_S40000x128_S640000x1_S640000x128_1_0_0_1),
        List.idxOf_lt_length_iff.2 (List.mem_singleton.mpr rfl)⟩ = ix2 e (0 : Fin 1) := by
  funext b; refine Fin.ext ?_
  match b with
  | ⟨0, _⟩ => rfl
  | ⟨1, _⟩ => rfl

theorem scatter_start0 (idx : IVec S640000x1 32) (e : Fin 640000) (d : Fin 128) :
    ScatterDims.start scatter_S40000x128_S640000x1_S640000x128_1_0_0_1 (ix2 e d) idx 0 = (idx (ix2 e (0 : Fin 1))).toInt := by
  unfold ScatterDims.start
  rw [dif_pos (show (0 : Fin 2) ∈ ScatterDims.scatterDimsToOperandDims scatter_S40000x128_S640000x1_S640000x128_1_0_0_1 from List.mem_singleton.mpr rfl)]
  rw [scatter_siIdx e d]

theorem scatter_start1 (idx : IVec S640000x1 32) (e : Fin 640000) (d : Fin 128) :
    ScatterDims.start scatter_S40000x128_S640000x1_S640000x128_1_0_0_1 (ix2 e d) idx 1 = 0 := by
  unfold ScatterDims.start
  rw [dif_neg (show ¬ (1 : Fin 2) ∈ ScatterDims.scatterDimsToOperandDims scatter_S40000x128_S640000x1_S640000x128_1_0_0_1 by decide)]

theorem scatter_window0 (e : Fin 640000) (d : Fin 128) :
    ScatterDims.window scatter_S40000x128_S640000x1_S640000x128_1_0_0_1 (ix2 e d) 0 = 0 := by
  unfold ScatterDims.window
  rw [dif_neg (show ¬ (0 : Fin 2) ∈ ScatterDims.sKept scatter_S40000x128_S640000x1_S640000x128_1_0_0_1 by decide)]

theorem scatter_window1 (e : Fin 640000) (d : Fin 128) :
    ScatterDims.window scatter_S40000x128_S640000x1_S640000x128_1_0_0_1 (ix2 e d) 1 = d.val := by
  unfold ScatterDims.window
  rw [dif_pos (show (1 : Fin 2) ∈ ScatterDims.sKept scatter_S40000x128_S640000x1_S640000x128_1_0_0_1 by decide)]
  rfl

/-- Update `(e, d')` lands on `(n, d)` exactly when the columns agree and edge `e`'s start word, read signed, is `n`. -/
theorem scatter_resultIdx (idx : IVec S640000x1 32) (e : Fin 640000) (d' : Fin 128) (n : Fin 40000) (d : Fin 128) :
    ScatterDims.resultIdx? scatter_S40000x128_S640000x1_S640000x128_1_0_0_1 (ix2 e d') idx = some (ix2 n d)
      ↔ d' = d ∧ (idx (ix2 e (0 : Fin 1))).toInt = (n.val : ℤ) := by
  unfold ScatterDims.resultIdx?
  split
  · rename_i h
    rw [Option.some.injEq]
    constructor
    · intro hf
      have h0 := congrArg (fun f => (f 0).val) hf
      have h1 := congrArg (fun f => (f 1).val) hf
      simp only [scatter_start0, scatter_start1, scatter_window0, scatter_window1] at h0 h1
      have hh := (h 0).1
      rw [scatter_start0, scatter_window0] at hh
      refine ⟨Fin.ext ?_, ?_⟩
      · change (0 + (d'.val : ℤ)).toNat = d.val at h1
        omega
      · change ((idx (ix2 e (0 : Fin 1))).toInt + ((0 : ℕ) : ℤ)).toNat = n.val at h0
        omega
    · rintro ⟨rfl, ht⟩
      funext a
      refine Fin.ext ?_
      match a with
      | ⟨0, _⟩ =>
        show (ScatterDims.start scatter_S40000x128_S640000x1_S640000x128_1_0_0_1 (ix2 e d') idx 0
          + (ScatterDims.window scatter_S40000x128_S640000x1_S640000x128_1_0_0_1 (ix2 e d') 0 : ℕ)).toNat = n.val
        rw [scatter_start0, scatter_window0, ht]; omega
      | ⟨1, _⟩ =>
        show (ScatterDims.start scatter_S40000x128_S640000x1_S640000x128_1_0_0_1 (ix2 e d') idx 1
          + (ScatterDims.window scatter_S40000x128_S640000x1_S640000x128_1_0_0_1 (ix2 e d') 1 : ℕ)).toNat = d'.val
        rw [scatter_start1, scatter_window1]; omega
  · rename_i h
    constructor
    · intro hf; exact absurd hf (by simp)
    · rintro ⟨rfl, ht⟩
      exfalso; apply h
      intro a
      match a with
      | ⟨0, _⟩ =>
        show 0 ≤ ScatterDims.start scatter_S40000x128_S640000x1_S640000x128_1_0_0_1 (ix2 e d') idx 0
            + (ScatterDims.window scatter_S40000x128_S640000x1_S640000x128_1_0_0_1 (ix2 e d') 0 : ℕ)
          ∧ ScatterDims.start scatter_S40000x128_S640000x1_S640000x128_1_0_0_1 (ix2 e d') idx 0
            + (ScatterDims.window scatter_S40000x128_S640000x1_S640000x128_1_0_0_1 (ix2 e d') 0 : ℕ) < ((40000 : ℕ) : ℤ)
        rw [scatter_start0, scatter_window0, ht]
        have := n.isLt
        omega
      | ⟨1, _⟩ =>
        show 0 ≤ ScatterDims.start scatter_S40000x128_S640000x1_S640000x128_1_0_0_1 (ix2 e d') idx 1
            + (ScatterDims.window scatter_S40000x128_S640000x1_S640000x128_1_0_0_1 (ix2 e d') 1 : ℕ)
          ∧ ScatterDims.start scatter_S40000x128_S640000x1_S640000x128_1_0_0_1 (ix2 e d') idx 1
            + (ScatterDims.window scatter_S40000x128_S640000x1_S640000x128_1_0_0_1 (ix2 e d') 1 : ℕ) < ((128 : ℕ) : ℤ)
        rw [scatter_start1, scatter_window1]
        have := d'.isLt
        omega

/-- The scatter-add at `(n, d)`: the operand there plus the updates `(e, d)` of the edges whose start word, read signed, is `n`. -/
theorem scatterAdd_row (x : S40000x128.Idx → EReal) (idx : IVec S640000x1 32) (upd : S640000x128.Idx → EReal)
    (n : Fin 40000) (d : Fin 128) :
    Host.scatterAdd (F := Ideal) (φ := .f32) scatter_S40000x128_S640000x1_S640000x128_1_0_0_1 x idx upd (ix2 n d)
      = x (ix2 n d) + ∑ e ∈ Finset.univ.filter (fun e : Fin 640000 => (idx (ix2 e (0 : Fin 1))).toInt = (n.val : ℤ)), upd (ix2 e d) := by
  show Ideal.hostScatterAdd scatter_S40000x128_S640000x1_S640000x128_1_0_0_1 x idx upd (ix2 n d) = _
  unfold Ideal.hostScatterAdd
  refine congrArg (fun s => x (ix2 n d) + s) ?_
  rw [Finset.sum_filter, sum_idx2, Finset.sum_filter]
  refine Finset.sum_congr rfl fun e _ => ?_
  by_cases ht : (idx (ix2 e (0 : Fin 1))).toInt = (n.val : ℤ)
  · rw [if_pos ht, Finset.sum_eq_single d]
    · rw [if_pos ((scatter_resultIdx idx e d n d).2 ⟨rfl, ht⟩)]
    · intro d' _ hd
      rw [if_neg (fun h => hd ((scatter_resultIdx idx e d' n d).1 h).1)]
    · intro h; exact absurd (Finset.mem_univ d) h
  · rw [if_neg ht]
    refine Finset.sum_eq_zero fun d' _ => ?_
    rw [if_neg (fun h => ht ((scatter_resultIdx idx e d' n d).1 h).2)]

/-- One layer from what its operands are at an index: the specification's `layerR`. -/
theorem layer_core (src dst : Fin 640000 → BitVec 32) (nrm : Fin 640000 → EReal) (M : S40000x128.Idx → EReal) (b : Fin 128 → EReal)
    (gidx sidx : IVec S640000x1 32) (nrmB : S640000x128.Idx → EReal) (zero bias : S40000x128.Idx → EReal)
    (hg : ∀ e, gidx (ix2 e (0 : Fin 1)) = if (src e).toInt < 0 then src e + 40000#32 else src e)
    (hs : ∀ e, sidx (ix2 e (0 : Fin 1)) = dst e)
    (hn : ∀ e d, nrmB (ix2 e d) = nrm e)
    (hz : ∀ i, zero i = 0)
    (hb : ∀ n d, bias (ix2 n d) = b d) :
    addf (F := Ideal) (φ := .f32) (Host.scatterAdd (F := Ideal) (φ := .f32) scatter_S40000x128_S640000x1_S640000x128_1_0_0_1 zero sidx
        (mulf (F := Ideal) (φ := .f32) (Host.gather gather_S40000x128_S640000x1_S640000x128_1_0_n_n_0_1_1128 M gidx) nrmB)) bias
      = scR dst (gaR src nrm M) b := by
  funext i
  obtain ⟨n, d, rfl⟩ : ∃ (n : Fin 40000) (d : Fin 128), i = ix2 n d := ⟨i 0, i 1, eq_ix2 i⟩
  show _ = (0 + ∑ e ∈ Finset.univ.filter (fun e : Fin 640000 => (dst e).toInt = (n.val : ℤ)), gaR src nrm M (ix2 e d)) + b d
  rw [addf_apply, scatterAdd_row, hz, hb]
  refine congrArg (fun s => (0 + s) + b d) ?_
  rw [Finset.sum_filter, Finset.sum_filter]
  refine Finset.sum_congr rfl fun e _ => ?_
  rw [hs e, mulf_apply, gather_row, hn, hg]
  rfl

/-- The stages of the reference read at an index: the two rows of the edge-index array, the wrapped gather indices, the weights
    broadcast along the rows, the zero tables the accumulations start from, the bias rows broadcast along the columns. -/
theorem v1_read (x3 : S2x640000.Idx → BitVec 32) (e : Fin 640000) :
    val_main_v1 (F := Ideal) x3 (ix1 e) = x3 (ix2 (0 : Fin 2) e) := by
  rw [val_main_v1_apply, val_main_v0_apply]
  refine congrArg x3 (funext fun a => Fin.ext ?_)
  match a with
  | ⟨0, _⟩ => rfl
  | ⟨1, _⟩ => exact Nat.mod_eq_of_lt e.isLt

theorem v3_read (x3 : S2x640000.Idx → BitVec 32) (e : Fin 640000) :
    val_main_v3 (F := Ideal) x3 (ix1 e) = x3 (ix2 (1 : Fin 2) e) := by
  rw [val_main_v3_apply, val_main_v2_apply]
  refine congrArg x3 (funext fun a => Fin.ext ?_)
  match a with
  | ⟨0, _⟩ => rfl
  | ⟨1, _⟩ => exact Nat.mod_eq_of_lt e.isLt

theorem v36_read (x3 : S2x640000.Idx → BitVec 32) (e : Fin 640000) :
    val_main_v36 (F := Ideal) x3 (ix2 e (0 : Fin 1))
      = if (srcOf x3 e).toInt < 0 then srcOf x3 e + 40000#32 else srcOf x3 e := by
  rw [val_main_v36_apply, val_main_v35_apply, val_main_v32_apply, val_main_v34_apply, val_main_v31_apply, val_main_v33_apply,
    val_main_c_6_apply, val_main_c_7_apply]
  show Scalar.select (IntOp.cmpi .slt (val_main_v1 (F := Ideal) x3 (ix1 e)) 0#32) (IntOp.addi (val_main_v1 (F := Ideal) x3 (ix1 e)) 40000#32)
    (val_main_v1 (F := Ideal) x3 (ix1 e)) = _
  rw [v1_read]
  exact wrap_eq _

theorem v57_read (x3 : S2x640000.Idx → BitVec 32) (e : Fin 640000) :
    val_main_v57 (F := Ideal) x3 (ix2 e (0 : Fin 1))
      = if (srcOf x3 e).toInt < 0 then srcOf x3 e + 40000#32 else srcOf x3 e := by
  rw [val_main_v57_apply, val_main_v56_apply, val_main_v53_apply, val_main_v55_apply, val_main_v52_apply, val_main_v54_apply,
    val_main_c_9_apply, val_main_c_10_apply]
  show Scalar.select (IntOp.cmpi .slt (val_main_v1 (F := Ideal) x3 (ix1 e)) 0#32) (IntOp.addi (val_main_v1 (F := Ideal) x3 (ix1 e)) 40000#32)
    (val_main_v1 (F := Ideal) x3 (ix1 e)) = _
  rw [v1_read]
  exact wrap_eq _

theorem v42_read (x3 : S2x640000.Idx → BitVec 32) (e : Fin 640000) :
    val_main_v42 (F := Ideal) x3 (ix2 e (0 : Fin 1)) = dstOf x3 e := by
  rw [val_main_v42_apply]
  show val_main_v3 (F := Ideal) x3 (ix1 e) = _
  rw [v3_read]; rfl

theorem v63_read (x3 : S2x640000.Idx → BitVec 32) (e : Fin 640000) :
    val_main_v63 (F := Ideal) x3 (ix2 e (0 : Fin 1)) = dstOf x3 e := by
  rw [val_main_v63_apply]
  show val_main_v3 (F := Ideal) x3 (ix1 e) = _
  rw [v3_read]; rfl

theorem v39_read (x3 : S2x640000.Idx → BitVec 32) (e : Fin 640000) (d : Fin 128) :
    val_main_v39 (F := Ideal) x3 (ix2 e d) = nrmR x3 e := by
  rw [val_main_v39_apply, val_main_v38_apply]
  rfl

theorem v60_read (x3 : S2x640000.Idx → BitVec 32) (e : Fin 640000) (d : Fin 128) :
    val_main_v60 (F := Ideal) x3 (ix2 e d) = nrmR x3 e := by
  rw [val_main_v60_apply, val_main_v59_apply]
  rfl

theorem v41_read (i : S40000x128.Idx) : val_main_v41 (F := Ideal) i = 0 := by
  rw [val_main_v41_apply, val_main_cst_8_apply]
  exact Ideal.ofBits_zero_f32

theorem v62_read (i : S40000x128.Idx) : val_main_v62 (F := Ideal) i = 0 := by
  rw [val_main_v62_apply, val_main_cst_11_apply]
  exact Ideal.ofBits_zero_f32

theorem v47_read (x2 : S2x128.Idx → EReal) (n : Fin 40000) (d : Fin 128) :
    val_main_v47 (F := Ideal) x2 (ix2 n d) = bl x2 0 d := by
  rw [val_main_v47_apply, val_main_v46_apply, val_main_v45_apply, val_main_v44_apply]
  refine congrArg x2 (funext fun a => Fin.ext ?_)
  match a with
  | ⟨0, _⟩ => rfl
  | ⟨1, _⟩ => exact Nat.mod_eq_of_lt d.isLt

theorem v68_read (x2 : S2x128.Idx → EReal) (n : Fin 40000) (d : Fin 128) :
    val_main_v68 (F := Ideal) x2 (ix2 n d) = bl x2 1 d := by
  rw [val_main_v68_apply, val_main_v67_apply, val_main_v66_apply, val_main_v65_apply]
  refine congrArg x2 (funext fun a => Fin.ext ?_)
  match a with
  | ⟨0, _⟩ => rfl
  | ⟨1, _⟩ => exact Nat.mod_eq_of_lt d.isLt

/-- The first dense transform: the features times layer 0's matrix. -/
theorem v30_eq (x0 : S40000x128.Idx → EReal) (x1 : S2x128x128.Idx → EReal) :
    val_main_v30 (F := Ideal) x0 x1 = mm x0 (Wl x1 0) := by
  funext i
  obtain ⟨n, d, rfl⟩ : ∃ (n : Fin 40000) (d : Fin 128), i = ix2 n d := ⟨i 0, i 1, eq_ix2 i⟩
  rw [val_main_v30_apply]
  show _ = ∑ k : Fin 128, x0 (ix2 n k) * x1 (ix3 (0 : Fin 2) k d)
  refine Finset.sum_congr rfl fun k _ => ?_
  rw [val_main_v29_apply, val_main_v28_apply]
  have hk := k.isLt
  have hd := d.isLt
  refine congrArg₂ (· * ·) (congrArg x0 (funext fun a => Fin.ext ?_)) (congrArg x1 (funext fun a => Fin.ext ?_))
  · match a with
    | ⟨0, _⟩ => rfl
    | ⟨1, _⟩ => rfl
  · match a with
    | ⟨0, _⟩ => rfl
    | ⟨1, _⟩ => show (k.val * 128 + d.val) / 128 % 128 = k.val; omega
    | ⟨2, _⟩ => show (k.val * 128 + d.val) % 128 = d.val; omega

/-- The second dense transform: layer 1's result times layer 1's matrix. -/
theorem v51_eq (x0 : S40000x128.Idx → EReal) (x1 : S2x128x128.Idx → EReal) (x2 : S2x128.Idx → EReal) (x3 : S2x640000.Idx → BitVec 32) :
    val_main_v51 (F := Ideal) x0 x1 x2 x3 = mm (val_main_v48 (F := Ideal) x0 x1 x2 x3) (Wl x1 1) := by
  funext i
  obtain ⟨n, d, rfl⟩ : ∃ (n : Fin 40000) (d : Fin 128), i = ix2 n d := ⟨i 0, i 1, eq_ix2 i⟩
  rw [val_main_v51_apply]
  show _ = ∑ k : Fin 128, val_main_v48 (F := Ideal) x0 x1 x2 x3 (ix2 n k) * x1 (ix3 (1 : Fin 2) k d)
  refine Finset.sum_congr rfl fun k _ => ?_
  rw [val_main_v50_apply, val_main_v49_apply]
  have hk := k.isLt
  have hd := d.isLt
  refine congrArg₂ (· * ·) (congrArg (val_main_v48 (F := Ideal) x0 x1 x2 x3) (funext fun a => Fin.ext ?_)) (congrArg x1 (funext fun a => Fin.ext ?_))
  · match a with
    | ⟨0, _⟩ => rfl
    | ⟨1, _⟩ => rfl
  · match a with
    | ⟨0, _⟩ => rfl
    | ⟨1, _⟩ => show (k.val * 128 + d.val) / 128 % 128 = k.val; omega
    | ⟨2, _⟩ => show (k.val * 128 + d.val) % 128 = d.val; omega

/-- Layer 1 is the specification's layer at the arguments' pieces, -/
theorem v48_eq (x0 : S40000x128.Idx → EReal) (x1 : S2x128x128.Idx → EReal) (x2 : S2x128.Idx → EReal) (x3 : S2x640000.Idx → BitVec 32) :
    val_main_v48 (F := Ideal) x0 x1 x2 x3 = layerR (srcOf x3) (dstOf x3) (nrmR x3) x0 (Wl x1 0) (bl x2 0) := by
  unfold val_main_v48 val_main_v43 val_main_v40 val_main_v37 layerR
  rw [v30_eq]
  exact layer_core (srcOf x3) (dstOf x3) (nrmR x3) (mm x0 (Wl x1 0)) (bl x2 0) (val_main_v36 (F := Ideal) x3) (val_main_v42 (F := Ideal) x3)
    (val_main_v39 (F := Ideal) x3) (val_main_v41 (F := Ideal)) (val_main_v47 (F := Ideal) x2)
    (v36_read x3) (v42_read x3) (v39_read x3) v41_read (v47_read x2)

/-- layer 2 the specification's layer at layer 1's result, -/
theorem v69_eq (x0 : S40000x128.Idx → EReal) (x1 : S2x128x128.Idx → EReal) (x2 : S2x128.Idx → EReal) (x3 : S2x640000.Idx → BitVec 32) :
    val_main_v69 (F := Ideal) x0 x1 x2 x3
      = layerR (srcOf x3) (dstOf x3) (nrmR x3) (val_main_v48 (F := Ideal) x0 x1 x2 x3) (Wl x1 1) (bl x2 1) := by
  unfold val_main_v69 val_main_v64 val_main_v61 val_main_v58 layerR
  rw [v51_eq]
  exact layer_core (srcOf x3) (dstOf x3) (nrmR x3) (mm (val_main_v48 (F := Ideal) x0 x1 x2 x3) (Wl x1 1)) (bl x2 1)
    (val_main_v57 (F := Ideal) x3) (val_main_v63 (F := Ideal) x3)
    (val_main_v60 (F := Ideal) x3) (val_main_v62 (F := Ideal)) (val_main_v68 (F := Ideal) x2)
    (v57_read x3) (v63_read x3) (v60_read x3) v62_read (v68_read x2)

/-- and the result the specification's two-layer net of the arguments. -/
theorem ref_value (m : (ℓ : Loc nD τ sig) → Buf (Elt Ideal) ℓ) (c : Dev nD) :
    Cert.ReferenceIdeal.Value.res_main_v69 (F := Ideal) m c
      = Cert.Spec.netR (Cert.Spec.srcOf (m ((c.tc : Thread nD τ).loc main_arg3))) (Cert.Spec.dstOf (m ((c.tc : Thread nD τ).loc main_arg3)))
          (nrmR (m ((c.tc : Thread nD τ).loc main_arg3))) (m ((c.tc : Thread nD τ).loc main_arg0)) (m ((c.tc : Thread nD τ).loc main_arg1)) (m ((c.tc : Thread nD τ).loc main_arg2)) := by
  rw [Read.val_main_v69_eq, v69_eq, v48_eq]
  rfl

end Cert.ReferenceIdeal.RefValue

end
-- ==== Proof.NrmEq.lean ====
import proofs.«425587_j43765716746405_1_alg».proof.Proof.KI.HostVals
import proofs.«425587_j43765716746405_1_alg».proof.Proof.RefValue

noncomputable section

namespace Cert.KernelIdeal.Hand

open Idealize.ShloMosaic Idealize.ShloMosaic.ValueIdx

/-- The two programs compute the edge weights by the same operations, so the two weight functions of the edge-index array are one term. -/
theorem nrm_eq (a3 : (⟨2, ![2, 640000]⟩ : Shape).Idx → BitVec 32) :
    Cert.KernelIdeal.Hand.nrmK a3 = Cert.ReferenceIdeal.RefValue.nrmR a3 := by
  funext e
  show Cert.KernelIdeal.Hand.nrmVec (F := Ideal) a3 (ix1 e) = Cert.ReferenceIdeal.Read.val_main_v27 (F := Ideal) a3 (ix1 e)
  refine congrFun ?_ (ix1 e)
  rfl

end Cert.KernelIdeal.Hand

end
-- ==== Proof.Algebra.lean ====
import proofs.«425587_j43765716746405_1_alg».proof.Proof.Spec

noncomputable section

open scoped BigOperators

namespace Cert.Spec

open Idealize.ShloMosaic Idealize.ShloMosaic.ValueIdx

/-- Below 40960 a word is the word of `n` exactly when its signed value is `n`: both readings of a word below 2^31 are its value. -/
theorem ofNat_eq_iff_toInt (n : Fin 40960) (w : BitVec 32) :
    BitVec.ofNat 32 n.val = w ↔ w.toInt = (n.val : ℤ) := by
  have hw := w.isLt
  have hn := n.isLt
  rw [BitVec.toInt_eq_toNat_cond]
  constructor
  · rintro rfl
    simp only [BitVec.toNat_ofNat]
    split <;> omega
  · intro h
    apply BitVec.eq_of_toNat_eq
    rw [BitVec.toNat_ofNat]
    split at h <;> omega

/-- At an edge whose source is a row of the unpadded table only that row's term survives the sum, every other being `0 · x = 0`. -/
theorem gaK_apply (src : Fin 640000 → BitVec 32) (nrm : Fin 640000 → EReal) (M : (Sr 40960).Idx → EReal)
    (e : Fin 640000) (d : Fin 128) (h0 : 0 ≤ (src e).toInt) (h1 : (src e).toInt < 40000) :
    gaK src nrm M (ix2 e d) = nrm e * M (ix2 (⟨(src e).toInt.toNat, by omega⟩ : Fin 40960) d) := by
  show (∑ n : Fin 40960, (if BitVec.ofNat 32 n.val = src e then nrm e else 0) * M (ix2 n d)) = _
  rw [Finset.sum_eq_single (⟨(src e).toInt.toNat, by omega⟩ : Fin 40960)]
  · rw [if_pos]
    rw [ofNat_eq_iff_toInt]
    show (src e).toInt = (((src e).toInt.toNat : ℕ) : ℤ)
    omega
  · intro n' _ hne
    rw [if_neg, zero_mul]
    intro hEq
    apply hne
    rw [ofNat_eq_iff_toInt] at hEq
    apply Fin.ext
    show n'.val = (src e).toInt.toNat
    omega
  · intro habs
    exact absurd (Finset.mem_univ _) habs

/-- A word that is a row of the table is read as that row: no wrap, no clamp. -/
theorem rowR_of_ok (w : BitVec 32) (h0 : 0 ≤ w.toInt) (h1 : w.toInt < 40000) :
    rowR w = (⟨w.toInt.toNat, by omega⟩ : Fin 40000) := by
  unfold rowR
  apply Fin.ext
  show min ((if w.toInt < 0 then w + 40000#32 else w).toInt.toNat) 39999 = w.toInt.toNat
  rw [if_neg (not_lt.mpr h0)]
  omega

/-- The scatter at row `n` is the sum over the edges that end at `n`, since `1 · x = x` and `0 · x = 0` on the extended reals. -/
theorem scK_apply (dst : Fin 640000 → BitVec 32) (Msg : (Sr 640000).Idx → EReal) (b : Fin 128 → EReal)
    (n : Fin 40960) (d : Fin 128) :
    scK dst Msg b (ix2 n d)
      = (∑ e ∈ Finset.univ.filter (fun e : Fin 640000 => (dst e).toInt = (n.val : ℤ)), Msg (ix2 e d)) + b d := by
  show (∑ e : Fin 640000, (if BitVec.ofNat 32 n.val = dst e then (1 : EReal) else 0) * Msg (ix2 e d)) + b d = _
  rw [Finset.sum_filter]
  refine congrArg (fun s : EReal => s + b d) ?_
  apply Finset.sum_congr rfl
  intro e _
  by_cases h : (dst e).toInt = (n.val : ℤ)
  · rw [if_pos h, if_pos ((ofNat_eq_iff_toInt n (dst e)).mpr h), one_mul]
  · rw [if_neg h, if_neg (fun h' => h ((ofNat_eq_iff_toInt n (dst e)).mp h')), zero_mul]

/-- Below row 40000 the padded table's transform is the unpadded table's. -/
theorem mm_pad (Hp : (Sr 40960).Idx → EReal) (H : (Sr 40000).Idx → EReal)
    (hH : ∀ (n : Fin 40000) (k : Fin 128), Hp (ix2 ⟨n.val, by omega⟩ k) = H (ix2 n k))
    (W : Sw.Idx → EReal) (m : Fin 40000) (d : Fin 128) :
    mm Hp W (ix2 (⟨m.val, by omega⟩ : Fin 40960) d) = mm H W (ix2 m d) := by
  show (∑ k : Fin 128, Hp (ix2 (⟨m.val, by omega⟩ : Fin 40960) k) * W (ix2 k d))
      = ∑ k : Fin 128, H (ix2 m k) * W (ix2 k d)
  apply Finset.sum_congr rfl
  intro k _
  rw [hH m k]

/-- Where every source word is a row of the unpadded table and the padded table agrees with the unpadded one on its first 40000
    rows, the two layers agree on those rows; no finiteness is needed. -/
theorem layer_eq (src dst : Fin 640000 → BitVec 32) (nrm : Fin 640000 → EReal) (hsrc : SrcOk src)
    (Hp : (Sr 40960).Idx → EReal) (H : (Sr 40000).Idx → EReal)
    (hH : ∀ (n : Fin 40000) (k : Fin 128), Hp (ix2 ⟨n.val, by omega⟩ k) = H (ix2 n k))
    (W : Sw.Idx → EReal) (b : Fin 128 → EReal) (n : Fin 40000) (d : Fin 128) :
    layerK src dst nrm Hp W b (ix2 ⟨n.val, by omega⟩ d) = layerR src dst nrm H W b (ix2 n d) := by
  unfold layerK layerR
  rw [scK_apply]
  show _ = (0 + ∑ e ∈ Finset.univ.filter (fun e : Fin 640000 => (dst e).toInt = (n.val : ℤ)),
              gaR src nrm (mm H W) (ix2 e d)) + b d
  rw [zero_add]
  refine congrArg (fun s : EReal => s + b d) ?_
  apply Finset.sum_congr rfl
  intro e _
  obtain ⟨h0, h1⟩ := hsrc e
  rw [gaK_apply src nrm _ e d h0 h1]
  show _ = mm H W (ix2 (rowR (src e)) d) * nrm e
  rw [rowR_of_ok _ h0 h1, mul_comm]
  refine congrArg (fun s : EReal => s * nrm e) ?_
  exact mm_pad Hp H hH W ⟨(src e).toInt.toNat, by omega⟩ d

/-- The layer lemma, twice. -/
theorem net_eq (src dst : Fin 640000 → BitVec 32) (nrm : Fin 640000 → EReal) (hsrc : SrcOk src)
    (xp : (Sr 40960).Idx → EReal) (x : (Sr 40000).Idx → EReal)
    (hx : ∀ (n : Fin 40000) (k : Fin 128), xp (ix2 ⟨n.val, by omega⟩ k) = x (ix2 n k))
    (W : (⟨3, ![2, 128, 128]⟩ : Shape).Idx → EReal) (b : (⟨2, ![2, 128]⟩ : Shape).Idx → EReal) (n : Fin 40000) (d : Fin 128) :
    netK src dst nrm xp W b (ix2 ⟨n.val, by omega⟩ d) = netR src dst nrm x W b (ix2 n d) :=
  layer_eq src dst nrm hsrc _ _ (fun n' k => layer_eq src dst nrm hsrc xp x hx _ _ n' k) _ _ n d

end Cert.Spec

end
-- ==== Proof.PreOk.lean ====
import proofs.«425587_j43765716746405_1_alg».proof.Proof.Gen.Pre_finite_inputs
import proofs.«425587_j43765716746405_1_alg».proof.Proof.Spec
import Idealize.ShloMosaic.Lib.StableHlo.Predicate
import Idealize.ShloMosaic.Lib.ReduceAll
import Idealize.ShloMosaic.Lib.ValueLayout

noncomputable section

namespace Cert.PreOk

open Idealize.ShloMosaic Idealize.ShloMosaic.ValueIdx Cert.Pre_finite_inputs

instance : Subsingleton S_.Idx := ⟨fun _ _ => funext fun d => d.elim0⟩

/-- Row 0 of the edge-index array, read as a vector, is at edge `e` the array at `(0, e)`. -/
theorem src_read (a3 : IVec S2x640000 32) (hs : S2x640000.Slices ![0, 0] S1x640000) (hc : S1x640000.ShapeCasts S640000)
    (e : Fin 640000) :
    shapeCast S640000 (extractStridedSlice S1x640000 ![0, 0] a3 hs) hc (ix1 e) = a3 (ix2 0 e) :=
  (shapeCast_1a_a_apply _ hc e).trans (slice2_axis0_apply 0 a3 hs 0 e 0 rfl)

/-- A scalar word broadcast over the edges is that word at every edge. -/
theorem bcast_read (c : BitVec 32) (hb : S_.BroadcastsInDim S640000 (![] : Fin 0 → Fin S640000.rank)) (j : S640000.Idx) :
    broadcastInDim S640000 ![] hb (constantI S_ 32 c) j = c := rfl

/-- The precondition's fourth conjunct is the conjunction over the edges of `src e ≥ 0` and `src e < 40000`, both signed. -/
theorem srcOk_of_part1 {F : FTy → Type} [FloatOps F] (a3 : IVec S2x640000 32) (v13 : IVec S_ 1)
    (h : fn_part1 (F := F) a3 v13
        (shapeCast S640000 (extractStridedSlice S1x640000 ![0, 0] a3 Facts.slices_S2x640000_S1x640000_0_0) Facts.shapeCasts_S1x640000_S640000)
        (broadcastInDim S640000 ![] Facts.bcast_S_S640000 (constantI S_ 32 0#32)) ix0 = 1#1) :
    Cert.Spec.SrcOk (Cert.Spec.srcOf a3) := by
  intro e
  dsimp only [fn_part1] at h
  have h23 := (IntOp.andi_eq_one.1 h).2
  have he := Host.reduce_andi_all _ _ _ _ ix0 h23 (ix1 e)
  obtain ⟨hge, hlt⟩ := IntOp.andi_eq_one.1 he
  have h0 := IntOp.cmpi_sge.1 hge
  have h4 := IntOp.cmpi_slt.1 hlt
  rw [bcast_read, src_read] at h0
  rw [bcast_read, src_read] at h4
  have z0 : (0#32 : BitVec 32).toInt = 0 := by decide
  have z4 : (40000#32 : BitVec 32).toInt = 40000 := by decide
  rw [z0] at h0
  rw [z4] at h4
  exact ⟨h0, h4⟩

/-- If the precondition is 1 every conjunct is, so every source word is a row of the unpadded table; the float conjuncts are not used. -/
theorem srcOk_of_pre {F : FTy → Type} [FloatOps F] (x : FVec F S40000x128 .f32) (W : FVec F S2x128x128 .f32)
    (b : FVec F S2x128 .f32) (a3 : IVec S2x640000 32)
    (h : Cert.Pre_finite_inputs.fn (F := F) x W b a3 = fun _ => 1#1) :
    Cert.Spec.SrcOk (Cert.Spec.srcOf a3) := by
  have h0 := congrFun h ix0
  dsimp only [fn] at h0
  exact srcOk_of_part1 a3 _ h0

end Cert.PreOk

end
-- ==== Proof.Bridge.lean ====
import proofs.«425587_j43765716746405_1_alg».proof.Defs
import proofs.«425587_j43765716746405_1_alg».proof.Proof.KI.Stages
import proofs.«425587_j43765716746405_1_alg».proof.Proof.KI.Val0
import proofs.«425587_j43765716746405_1_alg».proof.Proof.KI.Val1
import proofs.«425587_j43765716746405_1_alg».proof.Proof.KI.Val2
import proofs.«425587_j43765716746405_1_alg».proof.Proof.KI.Val3
import proofs.«425587_j43765716746405_1_alg».proof.Proof.KI.Val4
import proofs.«425587_j43765716746405_1_alg».proof.Proof.KI.Val5
import proofs.«425587_j43765716746405_1_alg».proof.Proof.KI.HostVals
import proofs.«425587_j43765716746405_1_alg».proof.Proof.NrmEq
import proofs.«425587_j43765716746405_1_alg».proof.Proof.Algebra
import proofs.«425587_j43765716746405_1_alg».proof.Proof.PreOk
import proofs.«425587_j43765716746405_1_alg».proof.Proof.RefValue

noncomputable section

open scoped BigOperators

namespace Cert.KernelIdeal.Hand

open Cert.KernelIdeal Cert.KernelIdeal.Gen Cert.Spec Idealize.ShloMosaic Idealize.ShloMosaic.TcCoe Idealize.ShloMosaic.ValueIdx

/-- Equal arguments, equal values. -/
theorem mm_congr {N : Nat} {H H' : (Sr N).Idx → EReal} {W W' : Sw.Idx → EReal} (h1 : H = H') (h2 : W = W') :
    mm H W = mm H' W' := by rw [h1, h2]
theorem gaK_congr {s s' : Fin 640000 → BitVec 32} {w w' : Fin 640000 → EReal} {M M' : (Sr 40960).Idx → EReal}
    (h1 : s = s') (h2 : w = w') (h3 : M = M') : gaK s w M = gaK s' w' M' := by rw [h1, h2, h3]
theorem scK_congr {t t' : Fin 640000 → BitVec 32} {M M' : (Sr 640000).Idx → EReal} {b b' : Fin 128 → EReal}
    (h1 : t = t') (h2 : M = M') (h3 : b = b') : scK t M b = scK t' M' b' := by rw [h1, h2, h3]
theorem layerK_congr (s t : Fin 640000 → BitVec 32) (w : Fin 640000 → EReal) {H H' : (Sr 40960).Idx → EReal} (W : Sw.Idx → EReal)
    (b : Fin 128 → EReal) (h : H = H') : layerK s t w H W b = layerK s t w H' W b := by rw [h]

variable (m : (ℓ : Loc nD τ sig) → Buf (Elt Ideal) ℓ) (c : Dev nD)

/-- The first layer's output array: each region's array is the specification's function of the region's input arrays, and those
    arrays trace back to the arguments. -/
theorem layer1 : (X9 m c main_v39 : (Sr 40960).Idx → EReal)
    = layerK (srcOf (m ((c.tc : Thread nD τ).loc main_arg3))) (dstOf (m ((c.tc : Thread nD τ).loc main_arg3))) (nrmK (m ((c.tc : Thread nD τ).loc main_arg3))) (U5 m c main_v31) (Wl (m ((c.tc : Thread nD τ).loc main_arg1)) 0) (bl (m ((c.tc : Thread nD τ).loc main_arg2)) 0) := by
  have hmm : (X6 m c main_v34 : (Sr 40960).Idx → EReal) = mm (N := 40960) (U5 m c main_v31) (Wl (m ((c.tc : Thread nD τ).loc main_arg1)) 0) :=
    ((X6_out m c).trans (arrAt0_2 (tc (U5 m)) c)).trans (mm_congr rfl (v33_eq m c))
  have hga : (X7 m c main_v35 : (Sr 640000).Idx → EReal)
      = gaK (srcOf (m ((c.tc : Thread nD τ).loc main_arg3))) (nrmK (m ((c.tc : Thread nD τ).loc main_arg3))) (mm (N := 40960) (U5 m c main_v31) (Wl (m ((c.tc : Thread nD τ).loc main_arg1)) 0)) :=
    ((X7_out m c).trans (arrAt1_3 (tc (X6 m)) c)).trans
      (gaK_congr (funext fun e => (congrFun (X6_v28 m c) (ix2 0 e)).trans (v28_src m c e))
        (funext fun e => (congrFun (X6_v30 m c) (ix2 0 e)).trans (v30_nrm m c e)) hmm)
  have hsc : (X9 m c main_v39 : (Sr 40960).Idx → EReal)
      = scK (dstOf (m ((c.tc : Thread nD τ).loc main_arg3))) (gaK (srcOf (m ((c.tc : Thread nD τ).loc main_arg3))) (nrmK (m ((c.tc : Thread nD τ).loc main_arg3))) (mm (N := 40960) (U5 m c main_v31) (Wl (m ((c.tc : Thread nD τ).loc main_arg1)) 0))) (bl (m ((c.tc : Thread nD τ).loc main_arg2)) 0) :=
    ((X9_out m c).trans (arrAt2_3 (tc (U8 m)) c)).trans
      (scK_congr (funext fun e => (congrFun (U8_v29 m c) (ix2 0 e)).trans (v29_dst m c e))
        ((U8_v35 m c).trans hga) (funext fun d => v38_bias m c d))
  exact hsc

/-- The second layer's: the same three regions on the first layer's output. -/
theorem layer2 : (X14 m c main_v47 : (Sr 40960).Idx → EReal)
    = layerK (srcOf (m ((c.tc : Thread nD τ).loc main_arg3))) (dstOf (m ((c.tc : Thread nD τ).loc main_arg3))) (nrmK (m ((c.tc : Thread nD τ).loc main_arg3))) (X9 m c main_v39) (Wl (m ((c.tc : Thread nD τ).loc main_arg1)) 1) (bl (m ((c.tc : Thread nD τ).loc main_arg2)) 1) := by
  have hmm : (X11 m c main_v42 : (Sr 40960).Idx → EReal) = mm (N := 40960) (X9 m c main_v39) (Wl (m ((c.tc : Thread nD τ).loc main_arg1)) 1) :=
    ((X11_out m c).trans (arrAt3_2 (tc (U10 m)) c)).trans (mm_congr (U10_v39 m c) (v41_eq m c))
  have hga : (X12 m c main_v43 : (Sr 640000).Idx → EReal)
      = gaK (srcOf (m ((c.tc : Thread nD τ).loc main_arg3))) (nrmK (m ((c.tc : Thread nD τ).loc main_arg3))) (mm (N := 40960) (X9 m c main_v39) (Wl (m ((c.tc : Thread nD τ).loc main_arg1)) 1)) :=
    ((X12_out m c).trans (arrAt4_3 (tc (X11 m)) c)).trans
      (gaK_congr (funext fun e => (congrFun (X11_v28 m c) (ix2 0 e)).trans (v28_src m c e))
        (funext fun e => (congrFun (X11_v30 m c) (ix2 0 e)).trans (v30_nrm m c e)) hmm)
  have hsc : (X14 m c main_v47 : (Sr 40960).Idx → EReal)
      = scK (dstOf (m ((c.tc : Thread nD τ).loc main_arg3))) (gaK (srcOf (m ((c.tc : Thread nD τ).loc main_arg3))) (nrmK (m ((c.tc : Thread nD τ).loc main_arg3))) (mm (N := 40960) (X9 m c main_v39) (Wl (m ((c.tc : Thread nD τ).loc main_arg1)) 1))) (bl (m ((c.tc : Thread nD τ).loc main_arg2)) 1) :=
    ((X14_out m c).trans (arrAt5_3 (tc (U13 m)) c)).trans
      (scK_congr (funext fun e => (congrFun (U13_v29 m c) (ix2 0 e)).trans (v29_dst m c e))
        ((U13_v43 m c).trans hga) (funext fun d => v46_bias m c d))
  exact hsc

/-- The result buffer at a row of the unpadded table is the two-layer net of the padded features. -/
theorem kernel_value (n : Fin 40000) (d : Fin 128) :
    Gen.V15 m (outs m) c main_v48 (ix2 n d)
      = netK (srcOf (m ((c.tc : Thread nD τ).loc main_arg3))) (dstOf (m ((c.tc : Thread nD τ).loc main_arg3))) (nrmK (m ((c.tc : Thread nD τ).loc main_arg3))) (U5 m c main_v31) (m ((c.tc : Thread nD τ).loc main_arg1)) (m ((c.tc : Thread nD τ).loc main_arg2)) (ix2 ⟨n.val, by omega⟩ d) := by
  have h : (X14 m c main_v47 : (Sr 40960).Idx → EReal)
      = netK (srcOf (m ((c.tc : Thread nD τ).loc main_arg3))) (dstOf (m ((c.tc : Thread nD τ).loc main_arg3))) (nrmK (m ((c.tc : Thread nD τ).loc main_arg3))) (U5 m c main_v31) (m ((c.tc : Thread nD τ).loc main_arg1)) (m ((c.tc : Thread nD τ).loc main_arg2)) :=
    (layer2 m c).trans (layerK_congr _ _ _ _ _ (layer1 m c))
  exact (v48_row m c n d).trans (congrFun h (ix2 ⟨n.val, by omega⟩ d))

end Cert.KernelIdeal.Hand

namespace Cert.Proof.Hand

open Cert.KernelIdeal Cert.KernelIdeal.Gen Cert.KernelIdeal.Hand Cert.Spec Idealize.ShloMosaic Idealize.ShloMosaic.TcCoe Idealize.ShloMosaic.ValueIdx

/-- From launch memories that agree on the arguments, and with every source word a row of the unpadded table, the reference's
    result is the kernel program's: the two weight functions are equal and the two nets agree on the unpadded rows. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (c : Dev Cert.KernelIdeal.nD) :
    Cert.ReferenceIdeal.Value.res_main_v69 (F := Ideal) m' c = Gen.V15 m (outs m) c main_v48 := by
  obtain ⟨h0, h1, h2, h3⟩ := hagree c
  rw [Cert.ReferenceIdeal.RefValue.ref_value m' c, h0, h1, h2, h3]
  funext i
  obtain ⟨n, d, rfl⟩ : ∃ (n : Fin 40000) (d : Fin 128), i = ix2 n d := ⟨i 0, i 1, eq_ix2 i⟩
  refine Eq.trans ?_ (kernel_value m c n d).symm
  rw [nrm_eq]
  exact (net_eq (srcOf (m ((c.tc : Thread Cert.KernelIdeal.nD Cert.KernelIdeal.τ).loc Cert.KernelIdeal.main_arg3))) (dstOf (m ((c.tc : Thread Cert.KernelIdeal.nD Cert.KernelIdeal.τ).loc Cert.KernelIdeal.main_arg3))) (Cert.ReferenceIdeal.RefValue.nrmR (m ((c.tc : Thread Cert.KernelIdeal.nD Cert.KernelIdeal.τ).loc Cert.KernelIdeal.main_arg3)))
    (Cert.PreOk.srcOk_of_pre _ _ _ _ (hpre c)) (U5 m c main_v31) (m ((c.tc : Thread Cert.KernelIdeal.nD Cert.KernelIdeal.τ).loc Cert.KernelIdeal.main_arg0)) (fun n k => v31_row m c n k)
    (m ((c.tc : Thread Cert.KernelIdeal.nD Cert.KernelIdeal.τ).loc Cert.KernelIdeal.main_arg1)) (m ((c.tc : Thread Cert.KernelIdeal.nD Cert.KernelIdeal.τ).loc Cert.KernelIdeal.main_arg2)) n d).symm

end Cert.Proof.Hand

end
-- ==== Proof.lean ====
import proofs.«425587_j43765716746405_1_alg».proof.Defs
import proofs.«425587_j43765716746405_1_alg».proof.Proof.Gen.Kernel
import proofs.«425587_j43765716746405_1_alg».proof.Proof.Gen.KernelIdeal
import proofs.«425587_j43765716746405_1_alg».proof.Proof.Gen.ReferenceIdeal
import proofs.«425587_j43765716746405_1_alg».proof.Proof.Gen.ReferenceIdeal.Run
import proofs.«425587_j43765716746405_1_alg».proof.Proof.Gen.ReferenceIdeal.Read
import proofs.«425587_j43765716746405_1_alg».proof.Proof.Gen.Pre_finite_inputs
import proofs.«425587_j43765716746405_1_alg».proof.Proof.K.Frame
import proofs.«425587_j43765716746405_1_alg».proof.Proof.KI.Run
import proofs.«425587_j43765716746405_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel and the idealized kernel run and leave their arguments unchanged; the reference's frame is its run with
    the result dropped; the idealization rewrote nothing. -/
theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs run and end with the same result: two graph-convolution layers, which the kernel computes as
    matrix products with indicator matrices over a padded table and the reference by an indexed read and an accumulation. -/
theorem algebraic : Cert.algebraic_KernelIdeal_ReferenceIdeal := fun m ρ m' ρ' hpre hagree =>
  ⟨fun c => Cert.KernelIdeal.Gen.V15 m (Cert.KernelIdeal.Hand.outs m) c Cert.KernelIdeal.main_v48,
    Cert.KernelIdeal.Hand.run (F := Ideal) m ρ,
    (θ_run Cert.ReferenceIdeal.defs _ _).mono
      (fun _ h c => ⟨(h c).1.trans (Cert.Proof.Hand.results_eq m m' hpre hagree c), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
